-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S2x1250000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S2x1250000 : Shape := ⟨2, ![2, 1250000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S50000x1 : Shape := ⟨2, ![50000, 1]⟩
abbrev S5000x64 : Shape := ⟨2, ![5000, 64]⟩
abbrev S5000x1 : Shape := ⟨2, ![5000, 1]⟩
abbrev S1250000x64 : Shape := ⟨2, ![1250000, 64]⟩
abbrev S1x64 : Shape := ⟨2, ![1, 64]⟩
abbrev S1x1 : Shape := ⟨2, ![1, 1]⟩

abbrev nBuf : Space → Nat
  | .hbm => 88
  | .vmem => 63
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x1250000, .i32⟩
  | .hbm, ⟨12, _⟩ => ⟨S1250000, .i32⟩
  | .hbm, ⟨13, _⟩ => ⟨S1x1250000, .i32⟩
  | .hbm, ⟨14, _⟩ => ⟨S1250000, .i32⟩
  | .hbm, ⟨15, _⟩ => ⟨S_, .f32⟩
  | .hbm, ⟨16, _⟩ => ⟨S1250000, .f32⟩
  | .hbm, ⟨17, _⟩ => ⟨S_, .f32⟩
  | .hbm, ⟨18, _⟩ => ⟨S50000, .f32⟩
  | .hbm, ⟨19, _⟩ => ⟨S1250000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000, .f32⟩
  | .hbm, ⟨28, _⟩ => ⟨S_, .f32⟩
  | .hbm, ⟨29, _⟩ => ⟨S64, .f32⟩
  | .hbm, ⟨30, _⟩ => ⟨S50000x1, .i32⟩
  | .hbm, ⟨31, _⟩ => ⟨S64, .f32⟩
  | .hbm, ⟨32, _⟩ => ⟨S64x1, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S_, .f32⟩
  | .hbm, ⟨45, _⟩ => ⟨S50000x64, .f32⟩
  | .hbm, ⟨46, _⟩ => ⟨S1250000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S1250000, .i32⟩
  | .hbm, ⟨54, _⟩ => ⟨S1250000, .i1⟩
  | .hbm, ⟨55, _⟩ => ⟨S_, .i32⟩
  | .hbm, ⟨56, _⟩ => ⟨S1250000, .i32⟩
  | .hbm, ⟨57, _⟩ => ⟨S1250000, .i32⟩
  | .hbm, ⟨58, _⟩ => ⟨S1250000, .i32⟩
  | .hbm, ⟨59, _⟩ => ⟨S1250000x1, .i32⟩
  | .hbm, ⟨60, _⟩ => ⟨S1250000x64, .f32⟩
  | .hbm, ⟨61, _⟩ => ⟨S_, .f32⟩
  | .hbm, ⟨62, _⟩ => ⟨S50000x64, .f32⟩
  | .hbm, ⟨63, _⟩ => ⟨S1250000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S_, .i32⟩
  | .hbm, ⟨70, _⟩ => ⟨S1250000, .i32⟩
  | .hbm, ⟨71, _⟩ => ⟨S1250000, .i1⟩
  | .hbm, ⟨72, _⟩ => ⟨S_, .i32⟩
  | .hbm, ⟨73, _⟩ => ⟨S1250000, .i32⟩
  | .hbm, ⟨74, _⟩ => ⟨S1250000, .i32⟩
  | .hbm, ⟨75, _⟩ => ⟨S1250000, .i32⟩
  | .hbm, ⟨76, _⟩ => ⟨S1250000x1, .i32⟩
  | .hbm, ⟨77, _⟩ => ⟨S1250000x64, .f32⟩
  | .hbm, ⟨78, _⟩ => ⟨S_, .f32⟩
  | .hbm, ⟨79, _⟩ => ⟨S50000x64, .f32⟩
  | .hbm, ⟨80, _⟩ => ⟨S1250000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x1, .i32⟩
  | .hbm, ⟨85, _⟩ => ⟨S1x1, .f32⟩
  | .hbm, ⟨86, _⟩ => ⟨S64x1, .f32⟩
  | .hbm, ⟨87, _⟩ => ⟨S64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x1, .f32⟩
  | .local _ .vmem, ⟨40, _⟩ => ⟨S5000x1, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x1, .f32⟩
  | .local _ .vmem, ⟨50, _⟩ => ⟨S5000x1, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x1, .i32⟩
  | .local _ .vmem, ⟨57, _⟩ => ⟨S5000x1, .i32⟩
  | .local _ .vmem, ⟨58, _⟩ => ⟨S64x1, .f32⟩
  | .local _ .vmem, ⟨59, _⟩ => ⟨S64x1, .f32⟩
  | .local _ .vmem, ⟨60, _⟩ => ⟨S1x1, .f32⟩
  | .local _ .vmem, ⟨61, _⟩ => ⟨S64x1, .f32⟩
  | .local _ .vmem, ⟨62, _⟩ => ⟨S64x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43_0 : Ref sig .tc := ⟨.hbm, 67, rfl⟩
abbrev main_v43_1 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_scratch0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  bcast_S64_S1x64_1 : S64.BroadcastsInDim S1x64 (![1] : Fin 1 → Fin S1x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1_S1x1_1 : S1.BroadcastsInDim S1x1 (![1] : Fin 1 → Fin S1x1.rank)
  shapeCasts_S64x64_S64x64 : S64x64.ShapeCasts S64x64
  iota_S5000x64_d1_w32 : S5000x64.Iotas .tc 32 [1]
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S64x1_S64 : S64x1.ShapeCasts S64
  scatter_S50000_S1250000x1_S1250000_n_0_0_1_wf : ScatterDims.WF S50000 S1250000x1 S1250000 [] [0] [0] 1
  scatter_S64_S50000x1_S50000_n_0_0_1_wf : ScatterDims.WF S64 S50000x1 S50000 [] [0] [0] 1
  dot_S5000x64_S64x64_S5000x64_1_0_0_1_n_n_wf : DotDims.WF S5000x64 S64x64 S5000x64 [1] [0] [0] [1] [] []
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S5000x64_S5000x64_S64x64_0_0_1_1_n_n_wf : DotDims.WF S5000x64 S5000x64 S64x64 [0] [0] [1] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .i32 = 32 ∨ (Rect.block (s := S50000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v42) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v43_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v43_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v53) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43_0) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v55) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v16) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v57) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v58) S64x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S50000x64 : Shape := ⟨2, ![50000, 64]⟩
abbrev S2x1250000 : Shape := ⟨2, ![2, 1250000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 204
  | .vmem => 0
  | .smem => 0
  | _ => 0

abbrev hbmTy0_0 (i : Nat) : BufTy := match i % 128 with
  | 0 => ⟨S50000x64, .f32⟩
  | 1 => ⟨S2x1250000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x1250000, .i32⟩
  | 12 => ⟨S1250000, .i32⟩
  | 13 => ⟨S1x1250000, .i32⟩
  | 14 => ⟨S1250000, .i32⟩
  | 15 => ⟨S50000x64, .f32⟩
  | 16 => ⟨S_, .f32⟩
  | 17 => ⟨S1250000, .f32⟩
  | 18 => ⟨S_, .f32⟩
  | 19 => ⟨S50000, .f32⟩
  | 20 => ⟨S1250000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S1250000, .i32⟩
  | 28 => ⟨S1250000, .i1⟩
  | 29 => ⟨S_, .i32⟩
  | 30 => ⟨S1250000, .i32⟩
  | 31 => ⟨S1250000, .i32⟩
  | 32 => ⟨S1250000, .i32⟩
  | 33 => ⟨S1250000x1, .i32⟩
  | 34 => ⟨S1250000, .f32⟩
  | 35 => ⟨S_, .i32⟩
  | 36 => ⟨S1250000, .i32⟩
  | 37 => ⟨S1250000, .i1⟩
  | 38 => ⟨S_, .i32⟩
  | 39 => ⟨S1250000, .i32⟩
  | 40 => ⟨S1250000, .i32⟩
  | 41 => ⟨S1250000, .i32⟩
  | 42 => ⟨S1250000x1, .i32⟩
  | 43 => ⟨S1250000, .f32⟩
  | 44 => ⟨S1250000, .f32⟩
  | 45 => ⟨S_, .i32⟩
  | 46 => ⟨S1250000, .i32⟩
  | 47 => ⟨S1250000, .i1⟩
  | 48 => ⟨S_, .i32⟩
  | 49 => ⟨S1250000, .i32⟩
  | 50 => ⟨S1250000, .i32⟩
  | 51 => ⟨S1250000, .i32⟩
  | 52 => ⟨S1250000x1, .i32⟩
  | 53 => ⟨S1250000x64, .f32⟩
  | 54 => ⟨S1250000x1, .f32⟩
  | 55 => ⟨S1250000x64, .f32⟩
  | 56 => ⟨S1250000x64, .f32⟩
  | 57 => ⟨S_, .f32⟩
  | 58 => ⟨S50000x64, .f32⟩
  | 59 => ⟨S1250000x1, .i32⟩
  | 60 => ⟨S50000x64, .f32⟩
  | 61 => ⟨S50000, .f32⟩
  | 62 => ⟨S50000x1, .f32⟩
  | 63 => ⟨S50000x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S_, .f32⟩
  | 74 => ⟨S1250000, .f32⟩
  | 75 => ⟨S_, .f32⟩
  | 76 => ⟨S50000, .f32⟩
  | 77 => ⟨S1250000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S1250000, .i32⟩
  | 85 => ⟨S1250000, .i1⟩
  | 86 => ⟨S_, .i32⟩
  | 87 => ⟨S1250000, .i32⟩
  | 88 => ⟨S1250000, .i32⟩
  | 89 => ⟨S1250000, .i32⟩
  | 90 => ⟨S1250000x1, .i32⟩
  | 91 => ⟨S1250000, .f32⟩
  | 92 => ⟨S_, .i32⟩
  | 93 => ⟨S1250000, .i32⟩
  | 94 => ⟨S1250000, .i1⟩
  | 95 => ⟨S_, .i32⟩
  | 96 => ⟨S1250000, .i32⟩
  | 97 => ⟨S1250000, .i32⟩
  | 98 => ⟨S1250000, .i32⟩
  | 99 => ⟨S1250000x1, .i32⟩
  | 100 => ⟨S1250000, .f32⟩
  | 101 => ⟨S1250000, .f32⟩
  | 102 => ⟨S_, .i32⟩
  | 103 => ⟨S1250000, .i32⟩
  | 104 => ⟨S1250000, .i1⟩
  | 105 => ⟨S_, .i32⟩
  | 106 => ⟨S1250000, .i32⟩
  | 107 => ⟨S1250000, .i32⟩
  | 108 => ⟨S1250000, .i32⟩
  | 109 => ⟨S1250000x1, .i32⟩
  | 110 => ⟨S1250000x64, .f32⟩
  | 111 => ⟨S1250000x1, .f32⟩
  | 112 => ⟨S1250000x64, .f32⟩
  | 113 => ⟨S1250000x64, .f32⟩
  | 114 => ⟨S_, .f32⟩
  | 115 => ⟨S50000x64, .f32⟩
  | 116 => ⟨S1250000x1, .i32⟩
  | 117 => ⟨S50000x64, .f32⟩
  | 118 => ⟨S50000, .f32⟩
  | 119 => ⟨S50000x1, .f32⟩
  | 120 => ⟨S50000x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S_, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S1250000, .f32⟩
  | 4 => ⟨S_, .f32⟩
  | 5 => ⟨S50000, .f32⟩
  | 6 => ⟨S1250000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .i32⟩
  | 13 => ⟨S1250000, .i32⟩
  | 14 => ⟨S1250000, .i1⟩
  | 15 => ⟨S_, .i32⟩
  | 16 => ⟨S1250000, .i32⟩
  | 17 => ⟨S1250000, .i32⟩
  | 18 => ⟨S1250000, .i32⟩
  | 19 => ⟨S1250000x1, .i32⟩
  | 20 => ⟨S1250000, .f32⟩
  | 21 => ⟨S_, .i32⟩
  | 22 => ⟨S1250000, .i32⟩
  | 23 => ⟨S1250000, .i1⟩
  | 24 => ⟨S_, .i32⟩
  | 25 => ⟨S1250000, .i32⟩
  | 26 => ⟨S1250000, .i32⟩
  | 27 => ⟨S1250000, .i32⟩
  | 28 => ⟨S1250000x1, .i32⟩
  | 29 => ⟨S1250000, .f32⟩
  | 30 => ⟨S1250000, .f32⟩
  | 31 => ⟨S_, .i32⟩
  | 32 => ⟨S1250000, .i32⟩
  | 33 => ⟨S1250000, .i1⟩
  | 34 => ⟨S_, .i32⟩
  | 35 => ⟨S1250000, .i32⟩
  | 36 => ⟨S1250000, .i32⟩
  | 37 => ⟨S1250000, .i32⟩
  | 38 => ⟨S1250000x1, .i32⟩
  | 39 => ⟨S1250000x64, .f32⟩
  | 40 => ⟨S1250000x1, .f32⟩
  | 41 => ⟨S1250000x64, .f32⟩
  | 42 => ⟨S1250000x64, .f32⟩
  | 43 => ⟨S_, .f32⟩
  | 44 => ⟨S50000x64, .f32⟩
  | 45 => ⟨S1250000x1, .i32⟩
  | 46 => ⟨S50000x64, .f32⟩
  | 47 => ⟨S50000, .f32⟩
  | 48 => ⟨S50000x1, .f32⟩
  | 49 => ⟨S50000x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000, .f32⟩
  | 57 => ⟨S_, .f32⟩
  | 58 => ⟨S64, .f32⟩
  | 59 => ⟨S50000x1, .i32⟩
  | 60 => ⟨S64, .f32⟩
  | 61 => ⟨S_, .f32⟩
  | 62 => ⟨S64x64, .f32⟩
  | 63 => ⟨S50000x1, .i32⟩
  | 64 => ⟨S64x64, .f32⟩
  | 65 => ⟨S_, .f32⟩
  | 66 => ⟨S64, .f32⟩
  | 67 => ⟨S64, .f32⟩
  | 68 => ⟨S64x1, .f32⟩
  | 69 => ⟨S64x64, .f32⟩
  | 70 => ⟨S64x64, .f32⟩
  | 71 => ⟨S64x1, .f32⟩
  | 72 => ⟨S1x1, .f32⟩
  | 73 => ⟨S64x1, .f32⟩
  | 74 => ⟨S64x1, .f32⟩
  | 75 => ⟨S64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_25 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_cst_29 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_31 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S50000x64_S64x64_S50000x64_1_0_0_1_n_n_wf : DotDims.WF S50000x64 S64x64 S50000x64 [1] [0] [0] [1] [] []
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x1_S64x1_1_0_0_1_n_n_wf : DotDims.WF S64x64 S64x1 S64x1 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KI.Stage1_0.lean ====
/- The first kernel call of a layer on one block of 5000 rows: the block's rows times the 64x64 weights, and that
   product with every row scaled by the row's entry of a column. What the body leaves in its two output blocks as
   functions of its three input blocks, and the body's obligation at every grid point. -/
import proofs.«415099_j43559558316604_1_alg».proof.Proof.Gen.KernelIdeal.Launch
import proofs.«415099_j43559558316604_1_alg».proof.Proof.Gen.KernelIdeal.Skeleton
import proofs.«415099_j43559558316604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_rows : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_col : Rect S5000x1 := Rect.unit (s := S5000x1) ![0, 0] S5000x1.size inb_S5000x1_S5000x1_0_0

def out0_3 (x0 : Vec F S5000x64 .f32) (x1 : Vec F S64x64 .f32) : Vec F S5000x64 .f32 :=
  View.canon [⟨r0_rows, k0_pay1 (View.ld x0 r0_rows) (View.ld x1 r0_w)⟩]

def out0_4 (x0 : Vec F S5000x64 .f32) (x1 : Vec F S64x64 .f32) (x2 : Vec F S5000x1 .f32) : Vec F S5000x64 .f32 :=
  View.canon [⟨r0_rows, k0_pay2 (View.ld x0 r0_rows) (View.ld x1 r0_w) (View.ld x2 r0_col)⟩]

theorem cover0_rows (p0 : Vec F S5000x64 .f32) (y : S5000x64.Idx) :
    ∃ pc ∈ ([⟨r0_rows, p0⟩] : List (View.Piece (Elt F) S5000x64 .f32)), y ∈ pc.1.set :=
  View.cover_of_tiled [⟨r0_rows, p0⟩] S5000x64.size (by rfl) y

-- The body on whole blocks leaves the inputs as they were and each output at its function of the inputs.
set_option maxHeartbeats 1000000 in
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__stage1_kernel i arg1 harg1 arg2 harg2 arg3 harg3 arg4 harg4 arg5 harg5) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_rows _)
  iexists _; isplitr
  swap; · iexact H4
  ipureintro
  exact View.read_writes_eq_canon _ _ _ (cover0_rows _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- At every grid point, from the blocks before the body to the blocks after it.
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Stage2_1.lean ====
/- The second kernel call of a layer on one block of 5000 rows: from summed messages a, products p, a column d and a
   bias row b it leaves d * a + p * (d * d) + b, cut off below at zero in all but the last layer. What the body
   leaves in its output block as a function of its four input blocks, and the body's obligation at every grid point. -/
import proofs.«415099_j43559558316604_1_alg».proof.Proof.Gen.KernelIdeal.Launch
import proofs.«415099_j43559558316604_1_alg».proof.Proof.Gen.KernelIdeal.Skeleton
import proofs.«415099_j43559558316604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_rows : Rect S5000x64 := Rect.unit (s := S5000x64) ![0, 0] S5000x64.size inb_S5000x64_S5000x64_0_0
abbrev r1_col : Rect S5000x1 := Rect.unit (s := S5000x1) ![0, 0] S5000x1.size inb_S5000x1_S5000x1_0_0
abbrev r1_bias : Rect S1x64 := Rect.unit (s := S1x64) ![0, 0] S1x64.size inb_S1x64_S1x64_0_0

def out1_4 (x0 : Vec F S5000x64 .f32) (x1 : Vec F S5000x64 .f32) (x2 : Vec F S5000x1 .f32) (x3 : Vec F S1x64 .f32) : Vec F S5000x64 .f32 :=
  View.canon [⟨r1_rows, k1_pay1 (View.ld x2 r1_col) (View.ld x0 r1_rows) (View.ld x1 r1_rows) (View.ld x3 r1_bias)⟩]

theorem cover1_rows (p0 : Vec F S5000x64 .f32) (y : S5000x64.Idx) :
    ∃ pc ∈ ([⟨r1_rows, p0⟩] : List (View.Piece (Elt F) S5000x64 .f32)), y ∈ pc.1.set :=
  View.cover_of_tiled [⟨r1_rows, p0⟩] S5000x64.size (by rfl) y

-- The body on whole blocks leaves the inputs as they were and the output at its function of the inputs.
set_option maxHeartbeats 1000000 in
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_rows _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- At every grid point, from the blocks before the body to the blocks after it.
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Stage1_2.lean ====
/- The first kernel call of a layer on one block of 5000 rows: the block's rows times the 64x64 weights, and that
   product with every row scaled by the row's entry of a column. What the body leaves in its two output blocks as
   functions of its three input blocks, and the body's obligation at every grid point. -/
import proofs.«415099_j43559558316604_1_alg».proof.Proof.Gen.KernelIdeal.Launch
import proofs.«415099_j43559558316604_1_alg».proof.Proof.Gen.KernelIdeal.Skeleton
import proofs.«415099_j43559558316604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_rows : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_col : Rect S5000x1 := Rect.unit (s := S5000x1) ![0, 0] S5000x1.size inb_S5000x1_S5000x1_0_0

def out2_3 (x0 : Vec F S5000x64 .f32) (x1 : Vec F S64x64 .f32) : Vec F S5000x64 .f32 :=
  View.canon [⟨r2_rows, k2_pay1 (View.ld x0 r2_rows) (View.ld x1 r2_w)⟩]

def out2_4 (x0 : Vec F S5000x64 .f32) (x1 : Vec F S64x64 .f32) (x2 : Vec F S5000x1 .f32) : Vec F S5000x64 .f32 :=
  View.canon [⟨r2_rows, k2_pay2 (View.ld x0 r2_rows) (View.ld x1 r2_w) (View.ld x2 r2_col)⟩]

theorem cover2_rows (p0 : Vec F S5000x64 .f32) (y : S5000x64.Idx) :
    ∃ pc ∈ ([⟨r2_rows, p0⟩] : List (View.Piece (Elt F) S5000x64 .f32)), y ∈ pc.1.set :=
  View.cover_of_tiled [⟨r2_rows, p0⟩] S5000x64.size (by rfl) y

-- The body on whole blocks leaves the inputs as they were and each output at its function of the inputs.
set_option maxHeartbeats 1000000 in
theorem sound_kernel2 (c : Dev nD) (E : Set ℕ) (i : grid2.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1) ∗ owns (c : Thread nD τ) arg5 fullShare (out2_4 x0 x1 x2)) -∗ K ⟨⟩))
      ⊢ wp frame (wpE (defs₀ (F := F)) Variants.none c none) E (cc2__stage1_kernel i arg1 harg1 arg2 harg2 arg3 harg3 arg4 harg4 arg5 harg5) K := by
  simp only [cc2__stage1_kernel_eq_skeleton]; unfold cc2__stage1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_rows _)
  iexists _; isplitr
  swap; · iexact H4
  ipureintro
  exact View.read_writes_eq_canon _ _ _ (cover2_rows _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- At every grid point, from the blocks before the body to the blocks after it.
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Stage2_3.lean ====
/- The second kernel call of a layer on one block of 5000 rows: from summed messages a, products p, a column d and a
   bias row b it leaves d * a + p * (d * d) + b, cut off below at zero in all but the last layer. What the body
   leaves in its output block as a function of its four input blocks, and the body's obligation at every grid point. -/
import proofs.«415099_j43559558316604_1_alg».proof.Proof.Gen.KernelIdeal.Launch
import proofs.«415099_j43559558316604_1_alg».proof.Proof.Gen.KernelIdeal.Skeleton
import proofs.«415099_j43559558316604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_rows : Rect S5000x64 := Rect.unit (s := S5000x64) ![0, 0] S5000x64.size inb_S5000x64_S5000x64_0_0
abbrev r3_col : Rect S5000x1 := Rect.unit (s := S5000x1) ![0, 0] S5000x1.size inb_S5000x1_S5000x1_0_0
abbrev r3_bias : Rect S1x64 := Rect.unit (s := S1x64) ![0, 0] S1x64.size inb_S1x64_S1x64_0_0

def out3_4 (x0 : Vec F S5000x64 .f32) (x1 : Vec F S5000x64 .f32) (x2 : Vec F S5000x1 .f32) (x3 : Vec F S1x64 .f32) : Vec F S5000x64 .f32 :=
  View.canon [⟨r3_rows, k3_pay1 (View.ld x2 r3_col) (View.ld x0 r3_rows) (View.ld x1 r3_rows) (View.ld x3 r3_bias)⟩]

theorem cover3_rows (p0 : Vec F S5000x64 .f32) (y : S5000x64.Idx) :
    ∃ pc ∈ ([⟨r3_rows, p0⟩] : List (View.Piece (Elt F) S5000x64 .f32)), y ∈ pc.1.set :=
  View.cover_of_tiled [⟨r3_rows, p0⟩] S5000x64.size (by rfl) y

-- The body on whole blocks leaves the inputs as they were and the output at its function of the inputs.
set_option maxHeartbeats 1000000 in
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3_kernel i arg1 harg1 arg2 harg2 arg3 harg3 arg4 harg4 arg5 harg5) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_rows _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- At every grid point, from the blocks before the body to the blocks after it.
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Stage1_4.lean ====
/- The first kernel call of a layer on one block of 5000 rows: the block's rows times the 64x64 weights, and that
   product with every row scaled by the row's entry of a column. What the body leaves in its two output blocks as
   functions of its three input blocks, and the body's obligation at every grid point. -/
import proofs.«415099_j43559558316604_1_alg».proof.Proof.Gen.KernelIdeal.Launch
import proofs.«415099_j43559558316604_1_alg».proof.Proof.Gen.KernelIdeal.Skeleton
import proofs.«415099_j43559558316604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_rows : Rect S5000x64 := Rect.unit (s := S5000x64) ![0, 0] S5000x64.size inb_S5000x64_S5000x64_0_0
abbrev r4_w : Rect S64x64 := Rect.unit (s := S64x64) ![0, 0] S64x64.size inb_S64x64_S64x64_0_0
abbrev r4_col : Rect S5000x1 := Rect.unit (s := S5000x1) ![0, 0] S5000x1.size inb_S5000x1_S5000x1_0_0

def out4_3 (x0 : Vec F S5000x64 .f32) (x1 : Vec F S64x64 .f32) : Vec F S5000x64 .f32 :=
  View.canon [⟨r4_rows, k4_pay1 (View.ld x0 r4_rows) (View.ld x1 r4_w)⟩]

def out4_4 (x0 : Vec F S5000x64 .f32) (x1 : Vec F S64x64 .f32) (x2 : Vec F S5000x1 .f32) : Vec F S5000x64 .f32 :=
  View.canon [⟨r4_rows, k4_pay2 (View.ld x0 r4_rows) (View.ld x1 r4_w) (View.ld x2 r4_col)⟩]

theorem cover4_rows (p0 : Vec F S5000x64 .f32) (y : S5000x64.Idx) :
    ∃ pc ∈ ([⟨r4_rows, p0⟩] : List (View.Piece (Elt F) S5000x64 .f32)), y ∈ pc.1.set :=
  View.cover_of_tiled [⟨r4_rows, p0⟩] S5000x64.size (by rfl) y

-- The body on whole blocks leaves the inputs as they were and each output at its function of the inputs.
set_option maxHeartbeats 1000000 in
theorem sound_kernel4 (c : Dev nD) (E : Set ℕ) (i : grid4.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1) ∗ owns (c : Thread nD τ) arg5 fullShare (out4_4 x0 x1 x2)) -∗ K ⟨⟩))
      ⊢ wp frame (wpE (defs₀ (F := F)) Variants.none c none) E (cc4__stage1_kernel i arg1 harg1 arg2 harg2 arg3 harg3 arg4 harg4 arg5 harg5) K := by
  simp only [cc4__stage1_kernel_eq_skeleton]; unfold cc4__stage1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_rows _)
  iexists _; isplitr
  swap; · iexact H4
  ipureintro
  exact View.read_writes_eq_canon _ _ _ (cover4_rows _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) := by dsimp only [dat4]
theorem after4_4 (c : Dev nD) (t : Fin cfg4.N) : (dat4 V c).after 4 t = out4_4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- At every grid point, from the blocks before the body to the blocks after it.
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Stage2_5.lean ====
/- The second kernel call of a layer on one block of 5000 rows: from summed messages a, products p, a column d and a
   bias row b it leaves d * a + p * (d * d) + b, cut off below at zero in all but the last layer. What the body
   leaves in its output block as a function of its four input blocks, and the body's obligation at every grid point. -/
import proofs.«415099_j43559558316604_1_alg».proof.Proof.Gen.KernelIdeal.Launch
import proofs.«415099_j43559558316604_1_alg».proof.Proof.Gen.KernelIdeal.Skeleton
import proofs.«415099_j43559558316604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_rows : Rect S5000x64 := Rect.unit (s := S5000x64) ![0, 0] S5000x64.size inb_S5000x64_S5000x64_0_0
abbrev r5_col : Rect S5000x1 := Rect.unit (s := S5000x1) ![0, 0] S5000x1.size inb_S5000x1_S5000x1_0_0
abbrev r5_bias : Rect S1x64 := Rect.unit (s := S1x64) ![0, 0] S1x64.size inb_S1x64_S1x64_0_0

def out5_4 (x0 : Vec F S5000x64 .f32) (x1 : Vec F S5000x64 .f32) (x2 : Vec F S5000x1 .f32) (x3 : Vec F S1x64 .f32) : Vec F S5000x64 .f32 :=
  View.canon [⟨r5_rows, k5_pay1 (View.ld x2 r5_col) (View.ld x0 r5_rows) (View.ld x1 r5_rows) (View.ld x3 r5_bias)⟩]

theorem cover5_rows (p0 : Vec F S5000x64 .f32) (y : S5000x64.Idx) :
    ∃ pc ∈ ([⟨r5_rows, p0⟩] : List (View.Piece (Elt F) S5000x64 .f32)), y ∈ pc.1.set :=
  View.cover_of_tiled [⟨r5_rows, p0⟩] S5000x64.size (by rfl) y

-- The body on whole blocks leaves the inputs as they were and the output at its function of the inputs.
set_option maxHeartbeats 1000000 in
theorem sound_kernel5 (c : Dev nD) (E : Set ℕ) (i : grid5.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S1x64 .f32) (harg4 : arg4.IsWhole)
    (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5_kernel i arg1 harg1 arg2 harg2 arg3 harg3 arg4 harg4 arg5 harg5) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_rows _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

-- At every grid point, from the blocks before the body to the blocks after it.
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Pool6Runs.lean ====
/- The pooling call visits ten row blocks and carries per-graph sums from block to block: it clears them at the first
   block, adds each block's one-hot product, and at the last block divides by the graph sizes and applies the head.
   Here: which of the three cases a grid point falls in, and what the cases' runs are stated over. -/
import proofs.«415099_j43559558316604_1_alg».proof.Proof.Gen.KernelIdeal.Launch
import proofs.«415099_j43559558316604_1_alg».proof.Proof.Gen.KernelIdeal.Skeleton
import proofs.«415099_j43559558316604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst6 (i : grid6.Coords) : Prop :=
  (Scalar.cmpi .ne (Scalar.extui (Scalar.cmpi .eq (BitVec.ofNat 32 (i 0).val) 0#32)) 0#32) = 1#1

theorem isFirst6_iff : ∀ t : Fin cfg6.N, isFirst6 (grid6.coords t) ↔ t.val = 0 :=
  (by decide +kernel : ∀ t : Fin grid6.N, isFirst6 (grid6.coords t) ↔ t.val = 0)

abbrev isLast6 (i : grid6.Coords) : Prop := k6_cond2 i = 1#1

theorem isLast6_iff : ∀ t : Fin cfg6.N, isLast6 (grid6.coords t) ↔ t.val = 9 :=
  (by decide +kernel : ∀ t : Fin grid6.N, isLast6 (grid6.coords t) ↔ t.val = 9)

theorem live6_0 : ∀ t : Fin cfg6.N, cfg6.idle 0 (grid6.coords t) = false := by decide +kernel
theorem live6_1 : ∀ t : Fin cfg6.N, cfg6.idle 1 (grid6.coords t) = false := by decide +kernel
theorem live6_2 : ∀ t : Fin cfg6.N, cfg6.idle 2 (grid6.coords t) = false := by decide +kernel
theorem live6_3 : ∀ t : Fin cfg6.N, cfg6.idle 3 (grid6.coords t) = false := by decide +kernel
theorem live6_4 : ∀ t : Fin cfg6.N, cfg6.idle 4 (grid6.coords t) = false := by decide +kernel

theorem idle6_5_of : ∀ t : Fin cfg6.N, ¬isLast6 (grid6.coords t) → cfg6.idle 5 (grid6.coords t) = true := by decide +kernel

theorem noFlush6_5_of : ∀ t : Fin cfg6.N, ¬isLast6 (grid6.coords t) → (cfg6.win 5).flush t = false := by decide +kernel

theorem live6_5_of : ∀ t : Fin cfg6.N, isLast6 (grid6.coords t) → cfg6.idle 5 (grid6.coords t) = false := by decide +kernel

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S64x1 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S64x1 .f32 := win6_5.stage (cfg6.slots t 5)
abbrev hs6_5 (t : Fin cfg6.N) : (ms6_5 t).IsWhole := hstage6_5 ((cfg6.slots t 5).cast nbuf6_5)

abbrev sumsM6 : Memref sig .tc .vmem S64x64 .f32 := Memref.whole cc6_scratch0

abbrev sumsV6 : View sig .tc .vmem S64x64 .f32 := sumsM6.view

abbrev resV6 : View sig .tc .vmem S64x1 .f32 := (Memref.whole cc6_stg5_0 : Memref sig .tc .vmem S64x1 .f32).view

theorem PhiA6_eq (c : Dev nD) :
    (Pipeline.ΦA spec6 c : sProp 𝕄)
      = iprop(iprop(iprop((∃ d, owns (c : Thread nD τ) sumsM6 fullShare d))
          ∗ Pipeline.scopedRestBut (Ix := Unit) (Name := ℕ) (U := UR sig nD τ) (Lvl := ℕ) (Val := Elt F) spec6 c [cc6_scratch0])
        ∗ (∃ r, prngReg c r)) := by
  unfold Pipeline.ΦA; rw [scopedRest6_split]; simp only [sumsM6, owns_whole]; try rfl

section Body

variable (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x64 .f32) (harg7 : arg7.IsWhole)

set_option maxHeartbeats 1000000 in
noncomputable def bodyRun6_first (hfst : isFirst6 i) (hlst : ¬isLast6 i)
    (xh : Vec F S5000x64 .f32) (xb : Vec F S5000x1 .i32) (xn : Vec F S64x1 .f32) (xw : Vec F S64x1 .f32) (xc : Vec F S1x1 .f32) :
    { LS : List (View.Piece (Elt F) S64x64 .f32) //
      ∀ (xr : Vec F S64x1 .f32) (E : Set ℕ) (K : PUnit → sProp 𝕄),
        iprop(owns (c : Thread nD τ) arg1 fullShare xh ∗ owns (c : Thread nD τ) arg2 fullShare xb ∗ owns (c : Thread nD τ) arg3 fullShare xn ∗ owns (c : Thread nD τ) arg4 fullShare xw ∗ owns (c : Thread nD τ) arg5 fullShare xc ∗ owns (c : Thread nD τ) arg6 fullShare xr ∗ (∃ d, owns (c : Thread nD τ) arg7 fullShare d)
            ∗ (iprop(owns (c : Thread nD τ) arg1 fullShare xh ∗ owns (c : Thread nD τ) arg2 fullShare xb ∗ owns (c : Thread nD τ) arg3 fullShare xn ∗ owns (c : Thread nD τ) arg4 fullShare xw ∗ owns (c : Thread nD τ) arg5 fullShare xc ∗ owns (c : Thread nD τ) arg6 fullShare xr ∗ (∃ f, arg7.view.loc (c : Thread nD τ) ↦[arg7.view.set]{fullShare} arg7.view.writes (Elt F) f LS)) -∗ K ⟨⟩))
          ⊢ wp frame (wpE (defs₀ (F := F)) Variants.none c none) E (cc6__pool_kernel i arg1 harg1 arg2 harg2 arg3 harg3 arg4 harg4 arg5 harg5 arg6 harg6 arg7 harg7) K } := by
  refine ⟨?_, fun xr E K => ?run⟩
  case run =>
    simp only [cc6__pool_kernel_eq_skeleton]; unfold cc6__pool_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec (disch := first | exact hfst | exact hlst)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 1000000 in
noncomputable def bodyRun6_mid (hfst : ¬isFirst6 i) (hlst : ¬isLast6 i)
    (xh : Vec F S5000x64 .f32) (xb : Vec F S5000x1 .i32) (xn : Vec F S64x1 .f32) (xw : Vec F S64x1 .f32) (xc : Vec F S1x1 .f32) (xs : Vec F S64x64 .f32) :
    { LS : List (View.Piece (Elt F) S64x64 .f32) //
      ∀ (xr : Vec F S64x1 .f32) (E : Set ℕ) (K : PUnit → sProp 𝕄),
        iprop(owns (c : Thread nD τ) arg1 fullShare xh ∗ owns (c : Thread nD τ) arg2 fullShare xb ∗ owns (c : Thread nD τ) arg3 fullShare xn ∗ owns (c : Thread nD τ) arg4 fullShare xw ∗ owns (c : Thread nD τ) arg5 fullShare xc ∗ owns (c : Thread nD τ) arg6 fullShare xr ∗ owns (c : Thread nD τ) arg7 fullShare xs
            ∗ (iprop(owns (c : Thread nD τ) arg1 fullShare xh ∗ owns (c : Thread nD τ) arg2 fullShare xb ∗ owns (c : Thread nD τ) arg3 fullShare xn ∗ owns (c : Thread nD τ) arg4 fullShare xw ∗ owns (c : Thread nD τ) arg5 fullShare xc ∗ owns (c : Thread nD τ) arg6 fullShare xr ∗ (∃ f, arg7.view.loc (c : Thread nD τ) ↦[arg7.view.set]{fullShare} arg7.view.writes (Elt F) f LS)) -∗ K ⟨⟩))
          ⊢ wp frame (wpE (defs₀ (F := F)) Variants.none c none) E (cc6__pool_kernel i arg1 harg1 arg2 harg2 arg3 harg3 arg4 harg4 arg5 harg5 arg6 harg6 arg7 harg7) K } := by
  refine ⟨?_, fun xr E K => ?run⟩
  case run =>
    simp only [cc6__pool_kernel_eq_skeleton]; unfold cc6__pool_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hfs
    sl_exec (disch := first | exact hfst | exact hlst)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 1000000 in
noncomputable def bodyRun6_last (hfst : ¬isFirst6 i) (hlst : isLast6 i)
    (xh : Vec F S5000x64 .f32) (xb : Vec F S5000x1 .i32) (xn : Vec F S64x1 .f32) (xw : Vec F S64x1 .f32) (xc : Vec F S1x1 .f32) (xs : Vec F S64x64 .f32) :
    Σ' (LR : List (View.Piece (Elt F) S64x1 .f32)), { LS : List (View.Piece (Elt F) S64x64 .f32) //
      ∀ (E : Set ℕ) (K : PUnit → sProp 𝕄),
        iprop(owns (c : Thread nD τ) arg1 fullShare xh ∗ owns (c : Thread nD τ) arg2 fullShare xb ∗ owns (c : Thread nD τ) arg3 fullShare xn ∗ owns (c : Thread nD τ) arg4 fullShare xw ∗ owns (c : Thread nD τ) arg5 fullShare xc ∗ (∃ d, owns (c : Thread nD τ) arg6 fullShare d) ∗ owns (c : Thread nD τ) arg7 fullShare xs
            ∗ (iprop(owns (c : Thread nD τ) arg1 fullShare xh ∗ owns (c : Thread nD τ) arg2 fullShare xb ∗ owns (c : Thread nD τ) arg3 fullShare xn ∗ owns (c : Thread nD τ) arg4 fullShare xw ∗ owns (c : Thread nD τ) arg5 fullShare xc ∗ (∃ f, arg6.view.loc (c : Thread nD τ) ↦[arg6.view.set]{fullShare} arg6.view.writes (Elt F) f LR) ∗ (∃ f, arg7.view.loc (c : Thread nD τ) ↦[arg7.view.set]{fullShare} arg7.view.writes (Elt F) f LS)) -∗ K ⟨⟩))
          ⊢ wp frame (wpE (defs₀ (F := F)) Variants.none c none) E (cc6__pool_kernel i arg1 harg1 arg2 harg2 arg3 harg3 arg4 harg4 arg5 harg5 arg6 harg6 arg7 harg7) K } := by
  refine ⟨?_, ?_, fun E K => ?run⟩
  case run =>
    simp only [cc6__pool_kernel_eq_skeleton]; unfold cc6__pool_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hfs
    sl_exec (disch := first | exact hfst | exact hlst)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact HS

end Body

end Cert.KernelIdeal.Hand

end
-- ==== Proof.KI.Pool6.lean ====
/- The pooling call: what each of its three cases leaves in the carried sums and in the result block, the
   accumulation over the grid points, and the body's obligation at every point. -/
import proofs.«415099_j43559558316604_1_alg».proof.Proof.KI.Pool6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

section Body

variable (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x64 .f32) (harg7 : arg7.IsWhole)

theorem sumsCover6_first (hfst : isFirst6 i) (hlst : ¬isLast6 i)
    (xh : Vec F S5000x64 .f32) (xb : Vec F S5000x1 .i32) (xn : Vec F S64x1 .f32) (xw : Vec F S64x1 .f32) (xc : Vec F S1x1 .f32) (y : S64x64.Idx) :
    ∃ pc ∈ (bodyRun6_first c i arg1 harg1 arg2 harg2 arg3 harg3 arg4 harg4 arg5 harg5 arg6 harg6 arg7 harg7 hfst hlst xh xb xn xw xc).1, y ∈ pc.1.set :=
  View.cover_of_tiledL (bodyRun6_first c i arg1 harg1 arg2 harg2 arg3 harg3 arg4 harg4 arg5 harg5 arg6 harg6 arg7 harg7 hfst hlst xh xb xn xw xc).1 S64x64.size (by sl_kernel_rfl) y

def sums6_first (hfst : isFirst6 i) (hlst : ¬isLast6 i)
    (xh : Vec F S5000x64 .f32) (xb : Vec F S5000x1 .i32) (xn : Vec F S64x1 .f32) (xw : Vec F S64x1 .f32) (xc : Vec F S1x1 .f32) : Vec F S64x64 .f32 :=
  sumsV6.read (Elt F) (sumsV6.writes (Elt F) sumsV6.junk (bodyRun6_first c i arg1 harg1 arg2 harg2 arg3 harg3 arg4 harg4 arg5 harg5 arg6 harg6 arg7 harg7 hfst hlst xh xb xn xw xc).1)

theorem sumsCover6_mid (hfst : ¬isFirst6 i) (hlst : ¬isLast6 i)
    (xh : Vec F S5000x64 .f32) (xb : Vec F S5000x1 .i32) (xn : Vec F S64x1 .f32) (xw : Vec F S64x1 .f32) (xc : Vec F S1x1 .f32) (xs : Vec F S64x64 .f32) (y : S64x64.Idx) :
    ∃ pc ∈ (bodyRun6_mid c i arg1 harg1 arg2 harg2 arg3 harg3 arg4 harg4 arg5 harg5 arg6 harg6 arg7 harg7 hfst hlst xh xb xn xw xc xs).1, y ∈ pc.1.set :=
  View.cover_of_tiledL (bodyRun6_mid c i arg1 harg1 arg2 harg2 arg3 harg3 arg4 harg4 arg5 harg5 arg6 harg6 arg7 harg7 hfst hlst xh xb xn xw xc xs).1 S64x64.size (by sl_kernel_rfl) y

def sums6_mid (hfst : ¬isFirst6 i) (hlst : ¬isLast6 i)
    (xh : Vec F S5000x64 .f32) (xb : Vec F S5000x1 .i32) (xn : Vec F S64x1 .f32) (xw : Vec F S64x1 .f32) (xc : Vec F S1x1 .f32) (xs : Vec F S64x64 .f32) : Vec F S64x64 .f32 :=
  sumsV6.read (Elt F) (sumsV6.writes (Elt F) sumsV6.junk (bodyRun6_mid c i arg1 harg1 arg2 harg2 arg3 harg3 arg4 harg4 arg5 harg5 arg6 harg6 arg7 harg7 hfst hlst xh xb xn xw xc xs).1)

theorem sumsCover6_last (hfst : ¬isFirst6 i) (hlst : isLast6 i)
    (xh : Vec F S5000x64 .f32) (xb : Vec F S5000x1 .i32) (xn : Vec F S64x1 .f32) (xw : Vec F S64x1 .f32) (xc : Vec F S1x1 .f32) (xs : Vec F S64x64 .f32) (y : S64x64.Idx) :
    ∃ pc ∈ (bodyRun6_last c i arg1 harg1 arg2 harg2 arg3 harg3 arg4 harg4 arg5 harg5 arg6 harg6 arg7 harg7 hfst hlst xh xb xn xw xc xs).2.1, y ∈ pc.1.set :=
  View.cover_of_tiledL (bodyRun6_last c i arg1 harg1 arg2 harg2 arg3 harg3 arg4 harg4 arg5 harg5 arg6 harg6 arg7 harg7 hfst hlst xh xb xn xw xc xs).2.1 S64x64.size (by sl_kernel_rfl) y

def sums6_last (hfst : ¬isFirst6 i) (hlst : isLast6 i)
    (xh : Vec F S5000x64 .f32) (xb : Vec F S5000x1 .i32) (xn : Vec F S64x1 .f32) (xw : Vec F S64x1 .f32) (xc : Vec F S1x1 .f32) (xs : Vec F S64x64 .f32) : Vec F S64x64 .f32 :=
  sumsV6.read (Elt F) (sumsV6.writes (Elt F) sumsV6.junk (bodyRun6_last c i arg1 harg1 arg2 harg2 arg3 harg3 arg4 harg4 arg5 harg5 arg6 harg6 arg7 harg7 hfst hlst xh xb xn xw xc xs).2.1)

theorem resCover6_last (hfst : ¬isFirst6 i) (hlst : isLast6 i)
    (xh : Vec F S5000x64 .f32) (xb : Vec F S5000x1 .i32) (xn : Vec F S64x1 .f32) (xw : Vec F S64x1 .f32) (xc : Vec F S1x1 .f32) (xs : Vec F S64x64 .f32) (y : S64x1.Idx) :
    ∃ pc ∈ (bodyRun6_last c i arg1 harg1 arg2 harg2 arg3 harg3 arg4 harg4 arg5 harg5 arg6 harg6 arg7 harg7 hfst hlst xh xb xn xw xc xs).1, y ∈ pc.1.set :=
  View.cover_of_tiledL (bodyRun6_last c i arg1 harg1 arg2 harg2 arg3 harg3 arg4 harg4 arg5 harg5 arg6 harg6 arg7 harg7 hfst hlst xh xb xn xw xc xs).1 S64x1.size (by sl_kernel_rfl) y

def res6_last (hfst : ¬isFirst6 i) (hlst : isLast6 i)
    (xh : Vec F S5000x64 .f32) (xb : Vec F S5000x1 .i32) (xn : Vec F S64x1 .f32) (xw : Vec F S64x1 .f32) (xc : Vec F S1x1 .f32) (xs : Vec F S64x64 .f32) : Vec F S64x1 .f32 :=
  resV6.read (Elt F) (resV6.writes (Elt F) resV6.junk (bodyRun6_last c i arg1 harg1 arg2 harg2 arg3 harg3 arg4 harg4 arg5 harg5 arg6 harg6 arg7 harg7 hfst hlst xh xb xn xw xc xs).1)

end Body

def noRes6 : Vec F S64x1 .f32 := resV6.read (Elt F) resV6.junk

def outsAt6 (c : Dev nD) : (n : ℕ) → n < cfg6.N → Vec F S64x1 .f32 × Vec F S64x64 .f32
  | 0, hn => (noRes6, sums6_first c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) sumsM6 (Memref.isWhole_whole _) ((isFirst6_iff ⟨0, hn⟩).mpr rfl) (fun h => (fun h => by (try dsimp only at h); omega) ((isLast6_iff ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h9 : n + 1 = 9 then
      (res6_last c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) sumsM6 (Memref.isWhole_whole _) (fun h => Nat.succ_ne_zero n ((isFirst6_iff ⟨n + 1, hn⟩).mp h)) ((isLast6_iff ⟨n + 1, hn⟩).mpr h9) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2,
       sums6_last c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) sumsM6 (Memref.isWhole_whole _) (fun h => Nat.succ_ne_zero n ((isFirst6_iff ⟨n + 1, hn⟩).mp h)) ((isLast6_iff ⟨n + 1, hn⟩).mpr h9) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)
    else
      (noRes6, sums6_mid c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) sumsM6 (Memref.isWhole_whole _) (fun h => Nat.succ_ne_zero n ((isFirst6_iff ⟨n + 1, hn⟩).mp h)) (fun h => h9 ((isLast6_iff ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)

theorem outsAt6_first (c : Dev nD) (t : Fin cfg6.N) (h0 : t.val = 0) (h9 : ¬t.val = 9) :
    outsAt6 V c t.val t.isLt = (noRes6, sums6_first c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) ((isFirst6_iff t).mpr h0) (fun h => h9 ((isLast6_iff t).mp h)) (iblk6 V c 0 t) (iblk6 V c 1 t) (iblk6 V c 2 t) (iblk6 V c 3 t) (iblk6 V c 4 t)) := by
  obtain ⟨n, hn⟩ := t
  cases n with
  | zero => exact rfl
  | succ n => exact absurd h0 (Nat.succ_ne_zero n)

theorem outsAt6_mid (c : Dev nD) (t : Fin cfg6.N) (h0 : ¬t.val = 0) (h9 : ¬t.val = 9) :
    outsAt6 V c t.val t.isLt = (noRes6, sums6_mid c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) (fun h => h0 ((isFirst6_iff t).mp h)) (fun h => h9 ((isLast6_iff t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact absurd rfl h0
  | succ n => exact (dif_neg h9).trans rfl

theorem outsAt6_last (c : Dev nD) (t : Fin cfg6.N) (h0 : ¬t.val = 0) (h9 : t.val = 9) :
    outsAt6 V c t.val t.isLt
      = (res6_last c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) (fun h => h0 ((isFirst6_iff t).mp h)) ((isLast6_iff t).mpr h9) (iblk6 V c 0 t) (iblk6 V c 1 t) (iblk6 V c 2 t) (iblk6 V c 3 t) (iblk6 V c 4 t) (outsAt6 V c (t.val - 1) (Nat.lt_of_le_of_lt (Nat.sub_le _ _) t.isLt)).2,
         sums6_last c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) (fun h => h0 ((isFirst6_iff t).mp h)) ((isLast6_iff t).mpr h9) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact absurd rfl h0
  | succ n => exact (dif_pos h9).trans rfl

def PhiS6 (c : Dev nD) : (n : ℕ) → n ≤ cfg6.N → sProp 𝕄
  | 0, _ => Pipeline.ΦA spec6 c
  | n + 1, hn => iprop(iprop(owns (c : Thread nD τ) sumsM6 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) sumsM6 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) sumsM6 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [live6_0 t], after6_0]
  rw [show (dat6 V c).leavesExact 1 t = owns (c : Thread nD τ) (ms6_1 t) fullShare ((dat6 V c).after 1 t) from by
    unfold Dat.leavesExact; rw [live6_1 t], after6_1]
  rw [show (dat6 V c).leavesExact 2 t = owns (c : Thread nD τ) (ms6_2 t) fullShare ((dat6 V c).after 2 t) from by
    unfold Dat.leavesExact; rw [live6_2 t], after6_2]
  rw [show (dat6 V c).leavesExact 3 t = owns (c : Thread nD τ) (ms6_3 t) fullShare ((dat6 V c).after 3 t) from by
    unfold Dat.leavesExact; rw [live6_3 t], after6_3]
  rw [show (dat6 V c).leavesExact 4 t = owns (c : Thread nD τ) (ms6_4 t) fullShare ((dat6 V c).after 4 t) from by
    unfold Dat.leavesExact; rw [live6_4 t], after6_4]
  have hN : t.val < 10 := lt_of_lt_of_eq t.isLt (show cfg6.N = 10 from N_6)
  by_cases h0 : t.val = 0
  · have h9 : ¬t.val = 9 := by omega
    rw [Dat.leavesExact_idle (dat6 V c) 5 t (idle6_5_of t (fun h => h9 ((isLast6_iff t).mp h))) (noFlush6_5_of t (fun h => h9 ((isLast6_iff t).mp h)))]
    rw [outsAt6_first V c t h0 h9]
    unfold sums6_first; (try dsimp only)
    rw [PhiS6_castSucc V c t, PhiS6_zero V c _ _ h0, PhiA6_eq]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply ((bodyRun6_first c (grid6.coords t) _ _ _ _ _ _ _ _ _ _ _ _ _ _ ((isFirst6_iff t).mpr h0) (fun h => h9 ((isLast6_iff t).mp h)) (iblk6 V c 0 t) (iblk6 V c 1 t) (iblk6 V c 2 t) (iblk6 V c 3 t) (iblk6 V c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS HR Hg]
    · isplitl [HS HR]
      · isplitl [HS]
        · unfold owns; iexists _; isplitr
          swap; · iexact HS
          ipureintro; exact View.read_writes_of_cover _ _ _ _ _ (sumsCover6_first c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat6 V c).leavesExact 5 t = owns (c : Thread nD τ) (ms6_5 t) fullShare ((dat6 V c).after 5 t) from by
        unfold Dat.leavesExact; rw [live6_5_of t ((isLast6_iff t).mpr h9)], after6_5]
      rw [outsAt6_last V c t h0 h9]
      unfold res6_last sums6_last; (try dsimp only)
      rw [PhiS6_castSucc V c t, PhiS6_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((bodyRun6_last c (grid6.coords t) _ _ _ _ _ _ _ _ _ _ _ _ _ _ (fun h => h0 ((isFirst6_iff t).mp h)) ((isLast6_iff t).mpr h9) (iblk6 V c 0 t) (iblk6 V c 1 t) (iblk6 V c 2 t) (iblk6 V c 3 t) (iblk6 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (sumsCover6_last c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (resCover6_last c _ _ _ _ _ _ _ _ _ _ _ _ _ _ _ _ _ _ _ _ _ _ _)
    · rw [Dat.leavesExact_idle (dat6 V c) 5 t (idle6_5_of t (fun h => h9 ((isLast6_iff t).mp h))) (noFlush6_5_of t (fun h => h9 ((isLast6_iff t).mp h)))]
      rw [outsAt6_mid V c t h0 h9]
      unfold sums6_mid; (try dsimp only)
      rw [PhiS6_castSucc V c t, PhiS6_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((bodyRun6_mid c (grid6.coords t) _ _ _ _ _ _ _ _ _ _ _ _ _ _ (fun h => h0 ((isFirst6_iff t).mp h)) (fun h => h9 ((isLast6_iff t).mp h)) (iblk6 V c 0 t) (iblk6 V c 1 t) (iblk6 V c 2 t) (iblk6 V c 3 t) (iblk6 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (sumsCover6_mid c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

-- At every grid point, by the point's case: first, middle or last.
theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS, HR⟩, Hg⟩
  isplitl [HS HR]
  · isplitl [HS]
    · iexists _; iexact HS
    iexact HR
  iexact Hg

theorem hout6 (c : Dev nD) : (dat6 V c).Φ (Fin.last cfg6.N) ⊢ Pipeline.ΦA spec6 c :=
  Phi_out6 V c _ (by rw [Fin.val_last]; have : cfg6.N = 10 := N_6; omega)

end Region

end Cert.KernelIdeal.Hand

end
-- ==== Proof.KI.Chain.lean ====
/- The seven kernel calls in sequence: the arrays each call leaves, fixed one call after the other from what the
   items before it leave, and the seven calls' data as one family. -/
import proofs.«415099_j43559558316604_1_alg».proof.Proof.Gen.KernelIdeal.Regions
import proofs.«415099_j43559558316604_1_alg».proof.Proof.KI.Stage1_0
import proofs.«415099_j43559558316604_1_alg».proof.Proof.KI.Stage2_1
import proofs.«415099_j43559558316604_1_alg».proof.Proof.KI.Stage1_2
import proofs.«415099_j43559558316604_1_alg».proof.Proof.KI.Stage2_3
import proofs.«415099_j43559558316604_1_alg».proof.Proof.KI.Stage1_4
import proofs.«415099_j43559558316604_1_alg».proof.Proof.KI.Stage2_5
import proofs.«415099_j43559558316604_1_alg».proof.Proof.KI.Pool6
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

def W2 (c : Dev nD) : Valuation τ sig (Elt F) :=
  Pipeline.withArrays spec0 c (V1 m c) fun w => (dat0 (rd (V1 m)) c).arrAt w cfg0.N
def o2 : Outs (F := F) := fun _ r c => W2 m c r

def W4 (c : Dev nD) : Valuation τ sig (Elt F) :=
  Pipeline.withArrays spec1 c (V3 m (o2 m) c) fun w => (dat1 (rd (V3 m (o2 m))) c).arrAt w cfg1.N
def o4 : Outs (F := F) := Function.update (o2 m) 4 fun r c => W4 m c r

def W5 (c : Dev nD) : Valuation τ sig (Elt F) :=
  Pipeline.withArrays spec2 c (V4 m (o4 m) c) fun w => (dat2 (rd (V4 m (o4 m))) c).arrAt w cfg2.N
def o5 : Outs (F := F) := Function.update (o4 m) 5 fun r c => W5 m c r

def W7 (c : Dev nD) : Valuation τ sig (Elt F) :=
  Pipeline.withArrays spec3 c (V6 m (o5 m) c) fun w => (dat3 (rd (V6 m (o5 m))) c).arrAt w cfg3.N
def o7 : Outs (F := F) := Function.update (o5 m) 7 fun r c => W7 m c r

def W8 (c : Dev nD) : Valuation τ sig (Elt F) :=
  Pipeline.withArrays spec4 c (V7 m (o7 m) c) fun w => (dat4 (rd (V7 m (o7 m))) c).arrAt w cfg4.N
def o8 : Outs (F := F) := Function.update (o7 m) 8 fun r c => W8 m c r

def W10 (c : Dev nD) : Valuation τ sig (Elt F) :=
  Pipeline.withArrays spec5 c (V9 m (o8 m) c) fun w => (dat5 (rd (V9 m (o8 m))) c).arrAt w cfg5.N
def o10 : Outs (F := F) := Function.update (o8 m) 10 fun r c => W10 m c r

def W12 (c : Dev nD) : Valuation τ sig (Elt F) :=
  Pipeline.withArrays spec6 c (V11 m (o10 m) c) fun w => (dat6 (rd (V11 m (o10 m))) c).arrAt w cfg6.N

def outs : Outs (F := F) := Function.update (o10 m) 12 fun r c => W12 m c r

theorem V1_outs (c : Dev nD) : V1 m c = V1 m c := rfl
theorem V3_outs (c : Dev nD) : V3 m (outs m) c = V3 m (o2 m) c := rfl
theorem V4_outs (c : Dev nD) : V4 m (outs m) c = V4 m (o4 m) c := rfl
theorem V6_outs (c : Dev nD) : V6 m (outs m) c = V6 m (o5 m) c := rfl
theorem V7_outs (c : Dev nD) : V7 m (outs m) c = V7 m (o7 m) c := rfl
theorem V9_outs (c : Dev nD) : V9 m (outs m) c = V9 m (o8 m) c := rfl
theorem V11_outs (c : Dev nD) : V11 m (outs m) c = V11 m (o10 m) c := rfl
theorem outs_2 (r : Ref sig .tc) (c : Dev nD) : outs m 2 r c = W2 m c r := rfl
theorem outs_4 (r : Ref sig .tc) (c : Dev nD) : outs m 4 r c = W4 m c r := rfl
theorem outs_5 (r : Ref sig .tc) (c : Dev nD) : outs m 5 r c = W5 m c r := rfl
theorem outs_7 (r : Ref sig .tc) (c : Dev nD) : outs m 7 r c = W7 m c r := rfl
theorem outs_8 (r : Ref sig .tc) (c : Dev nD) : outs m 8 r c = W8 m c r := rfl
theorem outs_10 (r : Ref sig .tc) (c : Dev nD) : outs m 10 r c = W10 m c r := rfl
theorem outs_12 (r : Ref sig .tc) (c : Dev nD) : outs m 12 r c = W12 m c r := rfl

def pdats : (p : Fin 7) → (c : Dev nD) → Dat τ (Elt F) Unit ℕ (UR sig nD τ) ℕ (cfgs p) c
  | ⟨0, _⟩ => fun c => dat0 (rd (V1 m)) c
  | ⟨1, _⟩ => fun c => dat1 (rd (V3 m (o2 m))) c
  | ⟨2, _⟩ => fun c => dat2 (rd (V4 m (o4 m))) c
  | ⟨3, _⟩ => fun c => dat3 (rd (V6 m (o5 m))) c
  | ⟨4, _⟩ => fun c => dat4 (rd (V7 m (o7 m))) c
  | ⟨5, _⟩ => fun c => dat5 (rd (V9 m (o8 m))) c
  | ⟨6, _⟩ => fun c => dat6 (rd (V11 m (o10 m))) c

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)
abbrev E : Fin 8 → Dev nD → sProp 𝕄 := fun _ c => Rst c

end Cert.KernelIdeal.Hand

end
-- ==== Proof.LibPlainDot.lean ====
/- A plain matrix product read at an index over the extended reals: entry (p, j) is Sum_k L[p, k] * R[k, j]. -/
import Idealize.ShloMosaic.PureOps.Ideal.Laws
import Idealize.ShloMosaic.Lib.ValueIdx
import Idealize.ShloMosaic.Lib.KernelVsHost

noncomputable section

open scoped BigOperators

namespace Idealize.ShloMosaic.PlainDot

open Idealize.ShloMosaic Idealize.ShloMosaic.ValueIdx

variable (M K N : Nat)

theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

-- A plain product into a zero accumulator, at (p, j): row p of the left factor times column j of the right.
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

-- The host's plain product is the same sum: it is the matrix unit's product into zero.
theorem dotGeneral_apply {φ₁ φ₂ : FTy} (prec : Option ContractPrecision)
    (X : FVec Ideal (⟨2, ![M, K]⟩ : Shape) φ₁) (W : FVec Ideal (⟨2, ![K, N]⟩ : Shape) φ₂) (r : Fin M) (j : Fin N) :
    Host.dotGeneral (F := Ideal) (DotDims.plain M K N) prec X W (ix2 r j) = ∑ k : Fin K, X (ix2 r k) * W (ix2 k j) := by
  rw [← matmul_zero_eq_dotGeneral]
  exact matmul_zero_apply M K N prec X W r j

end Idealize.ShloMosaic.PlainDot

end
-- ==== Proof.LibKeepdimsColumn.lean ====
/- Small operations read at an index: a column broadcast along rows, a vector laid out as a column or as a row, a
   column read back as a vector, and the host's inverse square root. -/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

-- A column broadcast along the second axis reads, at (p, c), the column's entry of row p.
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem column_apply {a : ℕ} (h : (⟨1, ![a]⟩ : Shape).BroadcastsInDim ⟨2, ![a, 1]⟩ (![0] : Fin 1 → Fin 2))
    (v : (⟨1, ![a]⟩ : Shape).Idx → α) (j : Fin a) (u : Fin 1) :
    broadcastInDim ⟨2, ![a, 1]⟩ ![0] h v (ix2 j u) = v (ix1 j) :=
  broadcastInDim_apply _ h v (ix2 j u) (ix1 j) fun x => by
    match x with
    | ⟨0, _⟩ =>
      show j.val = if a = 1 then 0 else j.val
      split
      · have := j.isLt; omega
      · rfl

theorem row_apply {b : ℕ} (h : (⟨1, ![b]⟩ : Shape).BroadcastsInDim ⟨2, ![1, b]⟩ (![1] : Fin 1 → Fin 2))
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) fun x => by
    match x with
    | ⟨0, _⟩ =>
      show q.val = if b = 1 then 0 else q.val
      split
      · have := q.isLt; omega
      · rfl

theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i 0) :=
  shapeCast_apply x h _ _ (by
    rw [Shape.rowMajor_val_two, Shape.rowMajor_val_one]
    show i.val * 1 + 0 = i.val
    omega)

theorem hostRsqrt_apply {s : Shape} {φ : FTy} (x : FVec Ideal s φ) (i : s.Idx) :
    Host.rsqrt x i = Ideal.rsqrt (x i) := rfl

end Idealize.ShloMosaic.KeepdimsColumn

end
-- ==== Proof.KI.ValStage1_0.lean ====
/- What the first call of a layer leaves in its two output arrays, over the extended reals:
   product[n, j] = Sum_k rows[n, k] * weights[k, j] and scaled[n, j] = product[n, j] * column[n, 0].
   Point t writes block t of these, row r lies in the block of point r / 5000, and the ten blocks cover the arrays. -/
import proofs.«415099_j43559558316604_1_alg».proof.Proof.KI.Stage1_0
import proofs.«415099_j43559558316604_1_alg».proof.Proof.LibPlainDot
import proofs.«415099_j43559558316604_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem dot0_eq_plain : dot_S5000x64_S64x64_S5000x64_1_0_0_1_n_n = DotDims.plain 5000 64 64 := rfl

-- The product block at (p, j): row p of the rows block times column j of the weights.
theorem pay0_1_apply (x0 : Vec Ideal S5000x64 .f32) (x1 : Vec Ideal S64x64 .f32) (p : Fin 5000) (j : Fin 64) :
    k0_pay1 (F := Ideal) x0 x1 (ix2 p j) = ∑ k : Fin 64, x0 (ix2 p k) * x1 (ix2 k j) := by
  unfold k0_pay1
  rw [dot0_eq_plain]
  exact PlainDot.matmul_zero_apply 5000 64 64 none (truncf .bf16 x0 bitsLt_bf16_f32) (truncf .bf16 x1 bitsLt_bf16_f32) p j

theorem pay0_2_apply (x0 : Vec Ideal S5000x64 .f32) (x1 : Vec Ideal S64x64 .f32) (x2 : Vec Ideal S5000x1 .f32)
    (p : Fin 5000) (j : Fin 64) :
    k0_pay2 (F := Ideal) x0 x1 x2 (ix2 p j) = (∑ k : Fin 64, x0 (ix2 p k) * x1 (ix2 k j)) * x2 (ix2 p (0 : Fin 1)) := by
  unfold k0_pay2
  show k0_pay1 (F := Ideal) x0 x1 (ix2 p j) * broadcastTo S5000x64 (shapeCast S5000x1 x2 shapeCasts_S5000x1_S5000x1) broadcasts_S5000x1_S5000x64 (ix2 p j) = _
  rw [pay0_1_apply, shapeCast_self]
  exact congrArg _ (KeepdimsColumn.broadcastTo_a1_ab_apply x2 broadcasts_S5000x1_S5000x64 p j)

theorem hz0 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem rows0_apply (c : Dev nD) (t : Fin cfg0.N) (x : S5000x64.Idx) (i : S50000x64.Idx)
    (h0 : (i 0).val = 5000 * t.val + (x 0).val) (h1 : (i 1).val = (x 1).val) :
    (Hand.iblk0 V c 0 t : Vec Ideal S5000x64 .f32) x = (V c (Pipeline.arrRef spec0 0) : S50000x64.Idx → EReal) i := by
  obtain ⟨e0, e1, -⟩ := idx_facts0 t
  unfold Hand.iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 5000 + 1 * (x 0).val = (i 0).val; rw [e0, h0]; omega
  | ⟨1, _⟩ => show win0_0.index t (1 : Fin 2) * 64 + 1 * (x 1).val = (i 1).val; rw [e1, h1]; omega

theorem wts0_apply (c : Dev nD) (t : Fin cfg0.N) (x : S64x64.Idx) :
    (Hand.iblk0 V c 1 t : Vec Ideal S64x64 .f32) x = (V c (Pipeline.arrRef spec0 1) : S64x64.Idx → EReal) x := by
  obtain ⟨-, -, e0, e1, -⟩ := idx_facts0 t
  unfold Hand.iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 64 + 1 * (x 0).val = (x 0).val; rw [e0]; omega
  | ⟨1, _⟩ => show win0_1.index t (1 : Fin 2) * 64 + 1 * (x 1).val = (x 1).val; rw [e1]; omega

theorem col0_apply (c : Dev nD) (t : Fin cfg0.N) (x : S5000x1.Idx) (i : S50000x1.Idx)
    (h0 : (i 0).val = 5000 * t.val + (x 0).val) :
    (Hand.iblk0 V c 2 t : Vec Ideal S5000x1 .f32) x = (V c (Pipeline.arrRef spec0 2) : S50000x1.Idx → EReal) i := by
  obtain ⟨-, -, -, -, e0, e1, -⟩ := idx_facts0 t
  unfold Hand.iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 5000 + 1 * (x 0).val = (i 0).val; rw [e0, h0]; omega
  | ⟨1, _⟩ =>
    show win0_2.index t (1 : Fin 2) * 1 + 1 * (x 1).val = (i 1).val
    have hx : (x 1).val < 1 := (x 1).isLt
    have hi : (i 1).val < 1 := (i 1).isLt
    rw [e1]; omega

def prodArr0 (A0 : S50000x64.Idx → EReal) (A1 : S64x64.Idx → EReal) : S50000x64.Idx → EReal :=
  fun i => ∑ k : Fin 64, A0 (ix2 (n0 := 50000) (i 0) k) * A1 (ix2 k (n1 := 64) (i 1))

def scaledArr0 (A0 : S50000x64.Idx → EReal) (A1 : S64x64.Idx → EReal) (A2 : S50000x1.Idx → EReal) : S50000x64.Idx → EReal :=
  fun i => prodArr0 A0 A1 i * A2 (ix2 (n0 := 50000) (i 0) (0 : Fin 1))

theorem emb0_3_val (t : Fin cfg0.N) (y : S5000x64.Idx) :
    (((((cfg0.win 3).blk t).view.emb y : S50000x64.Idx) 0).val = 5000 * t.val + (y 0).val)
    ∧ (((((cfg0.win 3).blk t).view.emb y : S50000x64.Idx) 1).val = (y 1).val) := by
  obtain ⟨-, -, -, -, -, -, e0, e1, -⟩ := idx_facts0 t
  constructor
  · show win0_3.index t (0 : Fin 2) * 5000 + 1 * (y 0).val = _; rw [e0]; omega
  · show win0_3.index t (1 : Fin 2) * 64 + 1 * (y 1).val = _; rw [e1]; omega

theorem emb0_4_val (t : Fin cfg0.N) (y : S5000x64.Idx) :
    (((((cfg0.win 4).blk t).view.emb y : S50000x64.Idx) 0).val = 5000 * t.val + (y 0).val)
    ∧ (((((cfg0.win 4).blk t).view.emb y : S50000x64.Idx) 1).val = (y 1).val) := by
  obtain ⟨-, -, -, -, -, -, -, -, e0, e1⟩ := idx_facts0 t
  constructor
  · show win0_4.index t (0 : Fin 2) * 5000 + 1 * (y 0).val = _; rw [e0]; omega
  · show win0_4.index t (1 : Fin 2) * 64 + 1 * (y 1).val = _; rw [e1]; omega

theorem prodBlock0_eq (x0 : Vec Ideal S5000x64 .f32) (x1 : Vec Ideal S64x64 .f32)
    (A0 : S50000x64.Idx → EReal) (A1 : S64x64.Idx → EReal) (p : Fin 5000) (j : Fin 64) (i : S50000x64.Idx)
    (hx0 : ∀ k : Fin 64, x0 (ix2 p k) = A0 (ix2 (n0 := 50000) (i 0) k))
    (hx1 : ∀ k : Fin 64, x1 (ix2 k j) = A1 (ix2 k (n1 := 64) (i 1))) :
    (∑ k : Fin 64, x0 (ix2 p k) * x1 (ix2 k j)) = prodArr0 A0 A1 i :=
  Finset.sum_congr rfl fun k _ => congrArg₂ (· * ·) (hx0 k) (hx1 k)

theorem rows0_row (c : Dev nD) (t : Fin cfg0.N) (p : Fin 5000) (i : S50000x64.Idx)
    (h0 : (i 0).val = 5000 * t.val + p.val) (k : Fin 64) :
    (Hand.iblk0 V c 0 t : Vec Ideal S5000x64 .f32) (ix2 p k)
      = (V c (Pipeline.arrRef spec0 0) : S50000x64.Idx → EReal) (ix2 (n0 := 50000) (i 0) k) :=
  rows0_apply V c t (ix2 p k) (ix2 (n0 := 50000) (i 0) k) h0 rfl

theorem wts0_col (c : Dev nD) (t : Fin cfg0.N) (j : Fin 64) (i : S50000x64.Idx) (h1 : (i 1).val = j.val) (k : Fin 64) :
    (Hand.iblk0 V c 1 t : Vec Ideal S64x64 .f32) (ix2 k j)
      = (V c (Pipeline.arrRef spec0 1) : S64x64.Idx → EReal) (ix2 k (n1 := 64) (i 1)) :=
  (wts0_apply V c t (ix2 k j)).trans (congrArg _ (funext fun a => Fin.ext (by
    match a with
    | ⟨0, _⟩ => rfl
    | ⟨1, _⟩ => exact h1.symm)))

theorem block0_3_eq (c : Dev nD) (t : Fin cfg0.N) (y : S5000x64.Idx) :
    k0_pay1 (F := Ideal) (Hand.iblk0 V c 0 t) (Hand.iblk0 V c 1 t) y
      = prodArr0 (V c (Pipeline.arrRef spec0 0)) (V c (Pipeline.arrRef spec0 1)) (((cfg0.win 3).blk t).view.emb y) := by
  obtain ⟨h0, h1⟩ := emb0_3_val t y
  obtain ⟨p, j, rfl⟩ : ∃ (p : Fin 5000) (j : Fin 64), y = ix2 p j := ⟨y 0, y 1, eq_ix2 y⟩
  exact (pay0_1_apply (Hand.iblk0 V c 0 t) (Hand.iblk0 V c 1 t) p j).trans
    (prodBlock0_eq (Hand.iblk0 V c 0 t) (Hand.iblk0 V c 1 t) (V c (Pipeline.arrRef spec0 0)) (V c (Pipeline.arrRef spec0 1)) p j
      (((cfg0.win 3).blk t).view.emb (ix2 p j)) (rows0_row V c t p _ h0) (wts0_col V c t j _ h1))

theorem block0_4_eq (c : Dev nD) (t : Fin cfg0.N) (y : S5000x64.Idx) :
    k0_pay2 (F := Ideal) (Hand.iblk0 V c 0 t) (Hand.iblk0 V c 1 t) (Hand.iblk0 V c 2 t) y
      = scaledArr0 (V c (Pipeline.arrRef spec0 0)) (V c (Pipeline.arrRef spec0 1)) (V c (Pipeline.arrRef spec0 2))
          (((cfg0.win 4).blk t).view.emb y) := by
  obtain ⟨h0, h1⟩ := emb0_4_val t y
  obtain ⟨p, j, rfl⟩ : ∃ (p : Fin 5000) (j : Fin 64), y = ix2 p j := ⟨y 0, y 1, eq_ix2 y⟩
  refine (pay0_2_apply (Hand.iblk0 V c 0 t) (Hand.iblk0 V c 1 t) (Hand.iblk0 V c 2 t) p j).trans ?_
  exact congrArg₂ (· * ·)
    (prodBlock0_eq (Hand.iblk0 V c 0 t) (Hand.iblk0 V c 1 t) (V c (Pipeline.arrRef spec0 0)) (V c (Pipeline.arrRef spec0 1)) p j
      (((cfg0.win 4).blk t).view.emb (ix2 p j)) (rows0_row V c t p _ h0) (wts0_col V c t j _ h1))
    (col0_apply V c t (ix2 p (0 : Fin 1)) (ix2 (n0 := 50000) ((((cfg0.win 4).blk t).view.emb (ix2 p j) : S50000x64.Idx) 0) (0 : Fin 1)) h0)

theorem flushed0_3_eq (c : Dev nD) (t : Fin cfg0.N) :
    (Hand.dat0 V c).flushed 3 t
      = ((cfg0.win 3).blk t).view.read (Elt Ideal) (prodArr0 (V c (Pipeline.arrRef spec0 0)) (V c (Pipeline.arrRef spec0 1))) := by
  show (cfg0.win 3).cut (grid0.coords t) ((Hand.dat0 V c).after 3 t) = _
  rw [Hand.after0_3]
  unfold Hand.out0_3
  rw [View.canon_unit_zero hz0]
  simp only [View.ld_unit_zero (S := S5000x64) hz0, View.ld_unit_zero (S := S64x64) hz0]
  funext y
  exact block0_3_eq V c t y

theorem flushed0_4_eq (c : Dev nD) (t : Fin cfg0.N) :
    (Hand.dat0 V c).flushed 4 t
      = ((cfg0.win 4).blk t).view.read (Elt Ideal)
          (scaledArr0 (V c (Pipeline.arrRef spec0 0)) (V c (Pipeline.arrRef spec0 1)) (V c (Pipeline.arrRef spec0 2))) := by
  show (cfg0.win 4).cut (grid0.coords t) ((Hand.dat0 V c).after 4 t) = _
  rw [Hand.after0_4]
  unfold Hand.out0_4
  rw [View.canon_unit_zero hz0]
  simp only [View.ld_unit_zero (S := S5000x64) hz0, View.ld_unit_zero (S := S64x64) hz0, View.ld_unit_zero (S := S5000x1) hz0]
  funext y
  exact block0_4_eq V c t y

theorem mem_blk0_3 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole (Pipeline.arrRef spec0 3)).slice (win0_3.rect t)).set ↔ _
  rw [View.set_slice_whole, Rect.mem_set_unit]
  exact Iff.rfl

theorem mem_blk0_4 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole (Pipeline.arrRef spec0 4)).slice (win0_4.rect t)).set ↔ _
  rw [View.set_slice_whole, Rect.mem_set_unit]
  exact Iff.rfl

theorem cover0_3 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, e0, e1, -⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; rw [e0]; omega
  | ⟨1, _⟩ => show win0_3.index t (1 : Fin 2) * 64 ≤ (i 1).val ∧ (i 1).val < win0_3.index t (1 : Fin 2) * 64 + 64; rw [e1]; omega

theorem cover0_4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, -, -, e0, e1⟩ := idx_facts0 t
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; rw [e0]; omega
  | ⟨1, _⟩ => show win0_4.index t (1 : Fin 2) * 64 ≤ (i 1).val ∧ (i 1).val < win0_4.index t (1 : Fin 2) * 64 + 64; rw [e1]; omega

-- Every index lies in some point's block, and each point writes the whole product's block there.
theorem final0_3 (c : Dev nD) :
    (Hand.dat0 V c).arrAt 3 cfg0.N = prodArr0 (V c (Pipeline.arrRef spec0 0)) (V c (Pipeline.arrRef spec0 1)) :=
  (Hand.dat0 V c).arrAt_eq_of_cover 3 _ (fun t _ => flushed0_3_eq V c t) cover0_3

theorem final0_4 (c : Dev nD) :
    (Hand.dat0 V c).arrAt 4 cfg0.N
      = scaledArr0 (V c (Pipeline.arrRef spec0 0)) (V c (Pipeline.arrRef spec0 1)) (V c (Pipeline.arrRef spec0 2)) :=
  (Hand.dat0 V c).arrAt_eq_of_cover 4 _ (fun t _ => flushed0_4_eq V c t) cover0_4

theorem prod0_apply (c : Dev nD) (A0 : S50000x64.Idx → EReal) (A1 : S64x64.Idx → EReal)
    (hA0 : V c main_arg0 = A0) (hA1 : V c main_arg3 = A1) (n : Fin 50000) (j : Fin 64) :
    (Hand.dat0 (F := Ideal) V c).arrAt 3 cfg0.N (ValueIdx.ix2 n j) = ∑ k : Fin 64, A0 (ValueIdx.ix2 n k) * A1 (ValueIdx.ix2 k j) := by
  subst hA0; subst hA1
  exact congrFun (final0_3 V c) (ValueIdx.ix2 n j)

theorem scaled0_apply (c : Dev nD) (A0 : S50000x64.Idx → EReal) (A1 : S64x64.Idx → EReal) (A2 : S50000x1.Idx → EReal)
    (hA0 : V c main_arg0 = A0) (hA1 : V c main_arg3 = A1) (hA2 : V c main_v11 = A2) (n : Fin 50000) (j : Fin 64) :
    (Hand.dat0 (F := Ideal) V c).arrAt 4 cfg0.N (ValueIdx.ix2 n j)
      = (∑ k : Fin 64, A0 (ValueIdx.ix2 n k) * A1 (ValueIdx.ix2 k j)) * A2 (ValueIdx.ix2 n (0 : Fin 1)) := by
  subst hA0; subst hA1; subst hA2
  exact congrFun (final0_4 V c) (ValueIdx.ix2 n j)

end Cert.KernelIdeal.Val

end
-- ==== Proof.KI.ValStage2_1.lean ====
/- What the second call of a layer leaves in its output array, over the extended reals:
   out[n, j] = max (d[n] * a[n, j] + p[n, j] * (d[n] * d[n]) + b[j]) 0.
   Point t writes block t of it, and the ten blocks cover the array. -/
import proofs.«415099_j43559558316604_1_alg».proof.Proof.KI.Stage2_1
import proofs.«415099_j43559558316604_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pre1_apply (d : Vec Ideal S5000x1 .f32) (a : Vec Ideal S5000x64 .f32) (q : Vec Ideal S5000x64 .f32)
    (b : Vec Ideal S1x64 .f32) (p : Fin 5000) (j : Fin 64) :
    addf (F := Ideal) (φ := .f32) (addf (mulf (broadcastTo S5000x64 (shapeCast S5000x1 d shapeCasts_S5000x1_S5000x1) broadcasts_S5000x1_S5000x64)
        (shapeCast S5000x64 a shapeCasts_S5000x64_S5000x64))
      (mulf (shapeCast S5000x64 q shapeCasts_S5000x64_S5000x64)
        (broadcastTo S5000x64 (mulf (φ := .f32) (shapeCast S5000x1 d shapeCasts_S5000x1_S5000x1) (shapeCast S5000x1 d shapeCasts_S5000x1_S5000x1)) broadcasts_S5000x1_S5000x64)))
      (broadcastTo S5000x64 (shapeCast S1x64 b shapeCasts_S1x64_S1x64) broadcasts_S1x64_S5000x64) (ix2 p j)
      = d (ix2 p (0 : Fin 1)) * a (ix2 p j) + q (ix2 p j) * (d (ix2 p (0 : Fin 1)) * d (ix2 p (0 : Fin 1))) + b (ix2 (0 : Fin 1) j) := by
  rw [shapeCast_self, shapeCast_self, shapeCast_self, shapeCast_self]
  show broadcastTo S5000x64 d broadcasts_S5000x1_S5000x64 (ix2 p j) * a (ix2 p j)
      + q (ix2 p j) * broadcastTo S5000x64 (mulf (F := Ideal) (φ := .f32) d d) broadcasts_S5000x1_S5000x64 (ix2 p j)
      + broadcastTo S5000x64 b broadcasts_S1x64_S5000x64 (ix2 p j) = _
  rw [KeepdimsColumn.broadcastTo_a1_ab_apply d broadcasts_S5000x1_S5000x64 p j,
    KeepdimsColumn.broadcastTo_a1_ab_apply (mulf (F := Ideal) (φ := .f32) d d) broadcasts_S5000x1_S5000x64 p j,
    broadcastTo_1b_ab_apply b broadcasts_S1x64_S5000x64 p j]
  rfl

theorem pay1_1_apply (d : Vec Ideal S5000x1 .f32) (a : Vec Ideal S5000x64 .f32) (q : Vec Ideal S5000x64 .f32)
    (b : Vec Ideal S1x64 .f32) (p : Fin 5000) (j : Fin 64) :
    k1_pay1 (F := Ideal) d a q b (ix2 p j)
      = max (d (ix2 p (0 : Fin 1)) * a (ix2 p j) + q (ix2 p j) * (d (ix2 p (0 : Fin 1)) * d (ix2 p (0 : Fin 1))) + b (ix2 (0 : Fin 1) j))
          (Ideal.ofBits .f32 0x00000000#32) := by
  unfold k1_pay1
  show max (addf (F := Ideal) (φ := .f32) _ _ (ix2 p j)) (Ideal.ofBits .f32 0x00000000#32) = _
  rw [pre1_apply]

theorem hz1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem msgs1_apply (c : Dev nD) (t : Fin cfg1.N) (x : S5000x64.Idx) (i : S50000x64.Idx)
    (h0 : (i 0).val = 5000 * t.val + (x 0).val) (h1 : (i 1).val = (x 1).val) :
    (Hand.iblk1 V c 0 t : Vec Ideal S5000x64 .f32) x = (V c (Pipeline.arrRef spec1 0) : S50000x64.Idx → EReal) i := by
  obtain ⟨e0, e1, -⟩ := idx_facts1 t
  unfold Hand.iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

theorem prods1_apply (c : Dev nD) (t : Fin cfg1.N) (x : S5000x64.Idx) (i : S50000x64.Idx)
    (h0 : (i 0).val = 5000 * t.val + (x 0).val) (h1 : (i 1).val = (x 1).val) :
    (Hand.iblk1 V c 1 t : Vec Ideal S5000x64 .f32) x = (V c (Pipeline.arrRef spec1 1) : S50000x64.Idx → EReal) i := by
  obtain ⟨-, -, e0, e1, -⟩ := idx_facts1 t
  unfold Hand.iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 5000 + 1 * (x 0).val = (i 0).val; rw [e0, h0]; omega
  | ⟨1, _⟩ => show win1_1.index t (1 : Fin 2) * 64 + 1 * (x 1).val = (i 1).val; rw [e1, h1]; omega

theorem col1_apply (c : Dev nD) (t : Fin cfg1.N) (x : S5000x1.Idx) (i : S50000x1.Idx)
    (h0 : (i 0).val = 5000 * t.val + (x 0).val) :
    (Hand.iblk1 V c 2 t : Vec Ideal S5000x1 .f32) x = (V c (Pipeline.arrRef spec1 2) : S50000x1.Idx → EReal) i := by
  obtain ⟨-, -, -, -, e0, e1, -⟩ := idx_facts1 t
  unfold Hand.iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 5000 + 1 * (x 0).val = (i 0).val; rw [e0, h0]; omega
  | ⟨1, _⟩ =>
    show win1_2.index t (1 : Fin 2) * 1 + 1 * (x 1).val = (i 1).val
    have hx : (x 1).val < 1 := (x 1).isLt
    have hi : (i 1).val < 1 := (i 1).isLt
    rw [e1]; omega

theorem bias1_apply (c : Dev nD) (t : Fin cfg1.N) (x : S1x64.Idx) :
    (Hand.iblk1 V c 3 t : Vec Ideal S1x64 .f32) x = (V c (Pipeline.arrRef spec1 3) : S1x64.Idx → EReal) x := by
  obtain ⟨-, -, -, -, -, -, e0, e1, -⟩ := idx_facts1 t
  unfold Hand.iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

def preArr1 (A0 A1 : S50000x64.Idx → EReal) (A2 : S50000x1.Idx → EReal) (A3 : S1x64.Idx → EReal) : S50000x64.Idx → EReal :=
  fun i => A2 (ix2 (n0 := 50000) (i 0) (0 : Fin 1)) * A0 (ix2 (n0 := 50000) (n1 := 64) (i 0) (i 1))
    + A1 (ix2 (n0 := 50000) (n1 := 64) (i 0) (i 1)) * (A2 (ix2 (n0 := 50000) (i 0) (0 : Fin 1)) * A2 (ix2 (n0 := 50000) (i 0) (0 : Fin 1)))
    + A3 (ix2 (0 : Fin 1) (n1 := 64) (i 1))

def combArr1 (A0 A1 : S50000x64.Idx → EReal) (A2 : S50000x1.Idx → EReal) (A3 : S1x64.Idx → EReal) : S50000x64.Idx → EReal :=
  fun i => max (preArr1 A0 A1 A2 A3 i) (Ideal.ofBits .f32 0x00000000#32)

theorem emb1_4_val (t : Fin cfg1.N) (y : S5000x64.Idx) :
    (((((cfg1.win 4).blk t).view.emb y : S50000x64.Idx) 0).val = 5000 * t.val + (y 0).val)
    ∧ (((((cfg1.win 4).blk t).view.emb y : S50000x64.Idx) 1).val = (y 1).val) := by
  obtain ⟨-, -, -, -, -, -, -, -, e0, e1⟩ := idx_facts1 t
  constructor
  · show win1_4.index t (0 : Fin 2) * 5000 + 1 * (y 0).val = _; rw [e0]; omega
  · show win1_4.index t (1 : Fin 2) * 64 + 1 * (y 1).val = _; rw [e1]; omega

theorem preBlock1_eq (d : Vec Ideal S5000x1 .f32) (a : Vec Ideal S5000x64 .f32) (q : Vec Ideal S5000x64 .f32)
    (b : Vec Ideal S1x64 .f32) (A0 A1 : S50000x64.Idx → EReal) (A2 : S50000x1.Idx → EReal) (A3 : S1x64.Idx → EReal)
    (p : Fin 5000) (j : Fin 64) (i : S50000x64.Idx)
    (ha : a (ix2 p j) = A0 (ix2 (n0 := 50000) (n1 := 64) (i 0) (i 1)))
    (hq : q (ix2 p j) = A1 (ix2 (n0 := 50000) (n1 := 64) (i 0) (i 1)))
    (hd : d (ix2 p (0 : Fin 1)) = A2 (ix2 (n0 := 50000) (i 0) (0 : Fin 1)))
    (hb : b (ix2 (0 : Fin 1) j) = A3 (ix2 (0 : Fin 1) (n1 := 64) (i 1))) :
    d (ix2 p (0 : Fin 1)) * a (ix2 p j) + q (ix2 p j) * (d (ix2 p (0 : Fin 1)) * d (ix2 p (0 : Fin 1))) + b (ix2 (0 : Fin 1) j)
      = preArr1 A0 A1 A2 A3 i := by
  rw [ha, hq, hd, hb]
  rfl

theorem bias1_col (c : Dev nD) (t : Fin cfg1.N) (j : Fin 64) (i : S50000x64.Idx) (h1 : (i 1).val = j.val) :
    (Hand.iblk1 V c 3 t : Vec Ideal S1x64 .f32) (ix2 (0 : Fin 1) j)
      = (V c (Pipeline.arrRef spec1 3) : S1x64.Idx → EReal) (ix2 (0 : Fin 1) (n1 := 64) (i 1)) :=
  (bias1_apply V c t (ix2 (0 : Fin 1) j)).trans (congrArg _ (funext fun a => Fin.ext (by
    match a with
    | ⟨0, _⟩ => rfl
    | ⟨1, _⟩ => exact h1.symm)))

theorem block1_4_eq (c : Dev nD) (t : Fin cfg1.N) (y : S5000x64.Idx) :
    k1_pay1 (F := Ideal) (Hand.iblk1 V c 2 t) (Hand.iblk1 V c 0 t) (Hand.iblk1 V c 1 t) (Hand.iblk1 V c 3 t) y
      = combArr1 (V c (Pipeline.arrRef spec1 0)) (V c (Pipeline.arrRef spec1 1)) (V c (Pipeline.arrRef spec1 2))
          (V c (Pipeline.arrRef spec1 3)) (((cfg1.win 4).blk t).view.emb y) := by
  obtain ⟨h0, h1⟩ := emb1_4_val t y
  obtain ⟨p, j, rfl⟩ : ∃ (p : Fin 5000) (j : Fin 64), y = ix2 p j := ⟨y 0, y 1, eq_ix2 y⟩
  refine (pay1_1_apply (Hand.iblk1 V c 2 t) (Hand.iblk1 V c 0 t) (Hand.iblk1 V c 1 t) (Hand.iblk1 V c 3 t) p j).trans ?_
  exact congrArg (fun v : EReal => max v (Ideal.ofBits .f32 0x00000000#32))
    (preBlock1_eq (Hand.iblk1 V c 2 t) (Hand.iblk1 V c 0 t) (Hand.iblk1 V c 1 t) (Hand.iblk1 V c 3 t)
      (V c (Pipeline.arrRef spec1 0)) (V c (Pipeline.arrRef spec1 1)) (V c (Pipeline.arrRef spec1 2)) (V c (Pipeline.arrRef spec1 3))
      p j (((cfg1.win 4).blk t).view.emb (ix2 p j))
      (msgs1_apply V c t (ix2 p j) _ h0 h1) (prods1_apply V c t (ix2 p j) _ h0 h1)
      (col1_apply V c t (ix2 p (0 : Fin 1)) _ h0) (bias1_col V c t j _ h1))

theorem flushed1_4_eq (c : Dev nD) (t : Fin cfg1.N) :
    (Hand.dat1 V c).flushed 4 t
      = ((cfg1.win 4).blk t).view.read (Elt Ideal)
          (combArr1 (V c (Pipeline.arrRef spec1 0)) (V c (Pipeline.arrRef spec1 1)) (V c (Pipeline.arrRef spec1 2))
            (V c (Pipeline.arrRef spec1 3))) := by
  show (cfg1.win 4).cut (grid1.coords t) ((Hand.dat1 V c).after 4 t) = _
  rw [Hand.after1_4]
  unfold Hand.out1_4
  rw [View.canon_unit_zero hz1]
  simp only [View.ld_unit_zero (S := S5000x64) hz1, View.ld_unit_zero (S := S5000x1) hz1, View.ld_unit_zero (S := S1x64) hz1]
  funext y
  exact block1_4_eq V c t y

theorem mem_blk1_4 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole (Pipeline.arrRef spec1 4)).slice (win1_4.rect t)).set ↔ _
  rw [View.set_slice_whole, Rect.mem_set_unit]
  exact Iff.rfl

theorem cover1_4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, -, -, e0, e1⟩ := idx_facts1 t
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; rw [e0]; omega
  | ⟨1, _⟩ => show win1_4.index t (1 : Fin 2) * 64 ≤ (i 1).val ∧ (i 1).val < win1_4.index t (1 : Fin 2) * 64 + 64; rw [e1]; omega

-- Every index lies in some point's block, and each point writes the whole array's block there.
theorem final1_4 (c : Dev nD) :
    (Hand.dat1 V c).arrAt 4 cfg1.N
      = combArr1 (V c (Pipeline.arrRef spec1 0)) (V c (Pipeline.arrRef spec1 1)) (V c (Pipeline.arrRef spec1 2))
          (V c (Pipeline.arrRef spec1 3)) :=
  (Hand.dat1 V c).arrAt_eq_of_cover 4 _ (fun t _ => flushed1_4_eq V c t) cover1_4

theorem comb1_apply (c : Dev nD) (A0 A1 : S50000x64.Idx → EReal) (A2 : S50000x1.Idx → EReal) (A3 : S1x64.Idx → EReal)
    (hA0 : V c main_v27 = A0) (hA1 : V c main_v17_0 = A1) (hA2 : V c main_v11 = A2) (hA3 : V c main_v28 = A3)
    (n : Fin 50000) (j : Fin 64) :
    (Hand.dat1 (F := Ideal) V c).arrAt 4 cfg1.N (ValueIdx.ix2 n j)
      = max (A2 (ValueIdx.ix2 n (0 : Fin 1)) * A0 (ValueIdx.ix2 n j)
          + A1 (ValueIdx.ix2 n j) * (A2 (ValueIdx.ix2 n (0 : Fin 1)) * A2 (ValueIdx.ix2 n (0 : Fin 1)))
          + A3 (ValueIdx.ix2 (0 : Fin 1) j)) (Ideal.ofBits .f32 0x00000000#32) := by
  subst hA0; subst hA1; subst hA2; subst hA3
  exact congrFun (final1_4 V c) (ValueIdx.ix2 n j)

end Cert.KernelIdeal.Val

end
-- ==== Proof.KI.ValStage1_2.lean ====
/- What the first call of a layer leaves in its two output arrays, over the extended reals:
   product[n, j] = Sum_k rows[n, k] * weights[k, j] and scaled[n, j] = product[n, j] * column[n, 0].
   Point t writes block t of these, row r lies in the block of point r / 5000, and the ten blocks cover the arrays. -/
import proofs.«415099_j43559558316604_1_alg».proof.Proof.KI.Stage1_2
import proofs.«415099_j43559558316604_1_alg».proof.Proof.KI.ValStage1_0
import proofs.«415099_j43559558316604_1_alg».proof.Proof.LibPlainDot
import proofs.«415099_j43559558316604_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

-- The product block at (p, j): row p of the rows block times column j of the weights.
theorem pay2_1_apply (x0 : Vec Ideal S5000x64 .f32) (x1 : Vec Ideal S64x64 .f32) (p : Fin 5000) (j : Fin 64) :
    k2_pay1 (F := Ideal) x0 x1 (ix2 p j) = ∑ k : Fin 64, x0 (ix2 p k) * x1 (ix2 k j) := by
  unfold k2_pay1
  rw [shapeCast_self, dot0_eq_plain]
  exact PlainDot.matmul_zero_apply 5000 64 64 none (truncf .bf16 x0 bitsLt_bf16_f32) (truncf .bf16 x1 bitsLt_bf16_f32) p j

theorem pay2_2_apply (x0 : Vec Ideal S5000x64 .f32) (x1 : Vec Ideal S64x64 .f32) (x2 : Vec Ideal S5000x1 .f32)
    (p : Fin 5000) (j : Fin 64) :
    k2_pay2 (F := Ideal) x0 x1 x2 (ix2 p j) = (∑ k : Fin 64, x0 (ix2 p k) * x1 (ix2 k j)) * x2 (ix2 p (0 : Fin 1)) := by
  unfold k2_pay2
  show k2_pay1 (F := Ideal) x0 x1 (ix2 p j) * broadcastTo S5000x64 (shapeCast S5000x1 x2 shapeCasts_S5000x1_S5000x1) broadcasts_S5000x1_S5000x64 (ix2 p j) = _
  rw [pay2_1_apply, shapeCast_self]
  exact congrArg _ (KeepdimsColumn.broadcastTo_a1_ab_apply x2 broadcasts_S5000x1_S5000x64 p j)

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem rows2_apply (c : Dev nD) (t : Fin cfg2.N) (x : S5000x64.Idx) (i : S50000x64.Idx)
    (h0 : (i 0).val = 5000 * t.val + (x 0).val) (h1 : (i 1).val = (x 1).val) :
    (Hand.iblk2 V c 0 t : Vec Ideal S5000x64 .f32) x = (V c (Pipeline.arrRef spec2 0) : S50000x64.Idx → EReal) i := by
  obtain ⟨e0, e1, -⟩ := idx_facts2 t
  unfold Hand.iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 5000 + 1 * (x 0).val = (i 0).val; rw [e0, h0]; omega
  | ⟨1, _⟩ => show win2_0.index t (1 : Fin 2) * 64 + 1 * (x 1).val = (i 1).val; rw [e1, h1]; omega

theorem wts2_apply (c : Dev nD) (t : Fin cfg2.N) (x : S64x64.Idx) :
    (Hand.iblk2 V c 1 t : Vec Ideal S64x64 .f32) x = (V c (Pipeline.arrRef spec2 1) : S64x64.Idx → EReal) x := by
  obtain ⟨-, -, e0, e1, -⟩ := idx_facts2 t
  unfold Hand.iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 64 + 1 * (x 0).val = (x 0).val; rw [e0]; omega
  | ⟨1, _⟩ => show win2_1.index t (1 : Fin 2) * 64 + 1 * (x 1).val = (x 1).val; rw [e1]; omega

theorem col2_apply (c : Dev nD) (t : Fin cfg2.N) (x : S5000x1.Idx) (i : S50000x1.Idx)
    (h0 : (i 0).val = 5000 * t.val + (x 0).val) :
    (Hand.iblk2 V c 2 t : Vec Ideal S5000x1 .f32) x = (V c (Pipeline.arrRef spec2 2) : S50000x1.Idx → EReal) i := by
  obtain ⟨-, -, -, -, e0, e1, -⟩ := idx_facts2 t
  unfold Hand.iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 5000 + 1 * (x 0).val = (i 0).val; rw [e0, h0]; omega
  | ⟨1, _⟩ =>
    show win2_2.index t (1 : Fin 2) * 1 + 1 * (x 1).val = (i 1).val
    have hx : (x 1).val < 1 := (x 1).isLt
    have hi : (i 1).val < 1 := (i 1).isLt
    rw [e1]; omega

theorem emb2_3_val (t : Fin cfg2.N) (y : S5000x64.Idx) :
    (((((cfg2.win 3).blk t).view.emb y : S50000x64.Idx) 0).val = 5000 * t.val + (y 0).val)
    ∧ (((((cfg2.win 3).blk t).view.emb y : S50000x64.Idx) 1).val = (y 1).val) := by
  obtain ⟨-, -, -, -, -, -, e0, e1, -⟩ := idx_facts2 t
  constructor
  · show win2_3.index t (0 : Fin 2) * 5000 + 1 * (y 0).val = _; rw [e0]; omega
  · show win2_3.index t (1 : Fin 2) * 64 + 1 * (y 1).val = _; rw [e1]; omega

theorem emb2_4_val (t : Fin cfg2.N) (y : S5000x64.Idx) :
    (((((cfg2.win 4).blk t).view.emb y : S50000x64.Idx) 0).val = 5000 * t.val + (y 0).val)
    ∧ (((((cfg2.win 4).blk t).view.emb y : S50000x64.Idx) 1).val = (y 1).val) := by
  obtain ⟨-, -, -, -, -, -, -, -, e0, e1⟩ := idx_facts2 t
  constructor
  · show win2_4.index t (0 : Fin 2) * 5000 + 1 * (y 0).val = _; rw [e0]; omega
  · show win2_4.index t (1 : Fin 2) * 64 + 1 * (y 1).val = _; rw [e1]; omega

theorem rows2_row (c : Dev nD) (t : Fin cfg2.N) (p : Fin 5000) (i : S50000x64.Idx)
    (h0 : (i 0).val = 5000 * t.val + p.val) (k : Fin 64) :
    (Hand.iblk2 V c 0 t : Vec Ideal S5000x64 .f32) (ix2 p k)
      = (V c (Pipeline.arrRef spec2 0) : S50000x64.Idx → EReal) (ix2 (n0 := 50000) (i 0) k) :=
  rows2_apply V c t (ix2 p k) (ix2 (n0 := 50000) (i 0) k) h0 rfl

theorem wts2_col (c : Dev nD) (t : Fin cfg2.N) (j : Fin 64) (i : S50000x64.Idx) (h1 : (i 1).val = j.val) (k : Fin 64) :
    (Hand.iblk2 V c 1 t : Vec Ideal S64x64 .f32) (ix2 k j)
      = (V c (Pipeline.arrRef spec2 1) : S64x64.Idx → EReal) (ix2 k (n1 := 64) (i 1)) :=
  (wts2_apply V c t (ix2 k j)).trans (congrArg _ (funext fun a => Fin.ext (by
    match a with
    | ⟨0, _⟩ => rfl
    | ⟨1, _⟩ => exact h1.symm)))

theorem block2_3_eq (c : Dev nD) (t : Fin cfg2.N) (y : S5000x64.Idx) :
    k2_pay1 (F := Ideal) (Hand.iblk2 V c 0 t) (Hand.iblk2 V c 1 t) y
      = prodArr0 (V c (Pipeline.arrRef spec2 0)) (V c (Pipeline.arrRef spec2 1)) (((cfg2.win 3).blk t).view.emb y) := by
  obtain ⟨h0, h1⟩ := emb2_3_val t y
  obtain ⟨p, j, rfl⟩ : ∃ (p : Fin 5000) (j : Fin 64), y = ix2 p j := ⟨y 0, y 1, eq_ix2 y⟩
  exact (pay2_1_apply (Hand.iblk2 V c 0 t) (Hand.iblk2 V c 1 t) p j).trans
    (prodBlock0_eq (Hand.iblk2 V c 0 t) (Hand.iblk2 V c 1 t) (V c (Pipeline.arrRef spec2 0)) (V c (Pipeline.arrRef spec2 1)) p j
      (((cfg2.win 3).blk t).view.emb (ix2 p j)) (rows2_row V c t p _ h0) (wts2_col V c t j _ h1))

theorem block2_4_eq (c : Dev nD) (t : Fin cfg2.N) (y : S5000x64.Idx) :
    k2_pay2 (F := Ideal) (Hand.iblk2 V c 0 t) (Hand.iblk2 V c 1 t) (Hand.iblk2 V c 2 t) y
      = scaledArr0 (V c (Pipeline.arrRef spec2 0)) (V c (Pipeline.arrRef spec2 1)) (V c (Pipeline.arrRef spec2 2))
          (((cfg2.win 4).blk t).view.emb y) := by
  obtain ⟨h0, h1⟩ := emb2_4_val t y
  obtain ⟨p, j, rfl⟩ : ∃ (p : Fin 5000) (j : Fin 64), y = ix2 p j := ⟨y 0, y 1, eq_ix2 y⟩
  refine (pay2_2_apply (Hand.iblk2 V c 0 t) (Hand.iblk2 V c 1 t) (Hand.iblk2 V c 2 t) p j).trans ?_
  exact congrArg₂ (· * ·)
    (prodBlock0_eq (Hand.iblk2 V c 0 t) (Hand.iblk2 V c 1 t) (V c (Pipeline.arrRef spec2 0)) (V c (Pipeline.arrRef spec2 1)) p j
      (((cfg2.win 4).blk t).view.emb (ix2 p j)) (rows2_row V c t p _ h0) (wts2_col V c t j _ h1))
    (col2_apply V c t (ix2 p (0 : Fin 1)) (ix2 (n0 := 50000) ((((cfg2.win 4).blk t).view.emb (ix2 p j) : S50000x64.Idx) 0) (0 : Fin 1)) h0)

theorem flushed2_3_eq (c : Dev nD) (t : Fin cfg2.N) :
    (Hand.dat2 V c).flushed 3 t
      = ((cfg2.win 3).blk t).view.read (Elt Ideal) (prodArr0 (V c (Pipeline.arrRef spec2 0)) (V c (Pipeline.arrRef spec2 1))) := by
  show (cfg2.win 3).cut (grid2.coords t) ((Hand.dat2 V c).after 3 t) = _
  rw [Hand.after2_3]
  unfold Hand.out2_3
  rw [View.canon_unit_zero hz0]
  simp only [View.ld_unit_zero (S := S5000x64) hz0, View.ld_unit_zero (S := S64x64) hz0]
  funext y
  exact block2_3_eq V c t y

theorem flushed2_4_eq (c : Dev nD) (t : Fin cfg2.N) :
    (Hand.dat2 V c).flushed 4 t
      = ((cfg2.win 4).blk t).view.read (Elt Ideal)
          (scaledArr0 (V c (Pipeline.arrRef spec2 0)) (V c (Pipeline.arrRef spec2 1)) (V c (Pipeline.arrRef spec2 2))) := by
  show (cfg2.win 4).cut (grid2.coords t) ((Hand.dat2 V c).after 4 t) = _
  rw [Hand.after2_4]
  unfold Hand.out2_4
  rw [View.canon_unit_zero hz0]
  simp only [View.ld_unit_zero (S := S5000x64) hz0, View.ld_unit_zero (S := S64x64) hz0, View.ld_unit_zero (S := S5000x1) hz0]
  funext y
  exact block2_4_eq V c t y

theorem mem_blk2_3 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole (Pipeline.arrRef spec2 3)).slice (win2_3.rect t)).set ↔ _
  rw [View.set_slice_whole, Rect.mem_set_unit]
  exact Iff.rfl

theorem mem_blk2_4 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole (Pipeline.arrRef spec2 4)).slice (win2_4.rect t)).set ↔ _
  rw [View.set_slice_whole, Rect.mem_set_unit]
  exact Iff.rfl

theorem cover2_3 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [show cfg2.N = 10 from N_2]; omega⟩, rfl⟩
  obtain ⟨-, -, -, -, -, -, e0, e1, -⟩ := idx_facts2 t
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; rw [e0]; omega
  | ⟨1, _⟩ => show win2_3.index t (1 : Fin 2) * 64 ≤ (i 1).val ∧ (i 1).val < win2_3.index t (1 : Fin 2) * 64 + 64; rw [e1]; omega

theorem cover2_4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [show cfg2.N = 10 from N_2]; omega⟩, rfl⟩
  obtain ⟨-, -, -, -, -, -, -, -, e0, e1⟩ := idx_facts2 t
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; rw [e0]; omega
  | ⟨1, _⟩ => show win2_4.index t (1 : Fin 2) * 64 ≤ (i 1).val ∧ (i 1).val < win2_4.index t (1 : Fin 2) * 64 + 64; rw [e1]; omega

-- Every index lies in some point's block, and each point writes the whole product's block there.
theorem final2_3 (c : Dev nD) :
    (Hand.dat2 V c).arrAt 3 cfg2.N = prodArr0 (V c (Pipeline.arrRef spec2 0)) (V c (Pipeline.arrRef spec2 1)) :=
  (Hand.dat2 V c).arrAt_eq_of_cover 3 _ (fun t _ => flushed2_3_eq V c t) cover2_3

theorem final2_4 (c : Dev nD) :
    (Hand.dat2 V c).arrAt 4 cfg2.N
      = scaledArr0 (V c (Pipeline.arrRef spec2 0)) (V c (Pipeline.arrRef spec2 1)) (V c (Pipeline.arrRef spec2 2)) :=
  (Hand.dat2 V c).arrAt_eq_of_cover 4 _ (fun t _ => flushed2_4_eq V c t) cover2_4

theorem prod2_apply (c : Dev nD) (A0 : S50000x64.Idx → EReal) (A1 : S64x64.Idx → EReal)
    (hA0 : V c main_v29 = A0) (hA1 : V c main_arg5 = A1) (n : Fin 50000) (j : Fin 64) :
    (Hand.dat2 (F := Ideal) V c).arrAt 3 cfg2.N (ValueIdx.ix2 n j) = ∑ k : Fin 64, A0 (ValueIdx.ix2 n k) * A1 (ValueIdx.ix2 k j) := by
  subst hA0; subst hA1
  exact congrFun (final2_3 V c) (ValueIdx.ix2 n j)

theorem scaled2_apply (c : Dev nD) (A0 : S50000x64.Idx → EReal) (A1 : S64x64.Idx → EReal) (A2 : S50000x1.Idx → EReal)
    (hA0 : V c main_v29 = A0) (hA1 : V c main_arg5 = A1) (hA2 : V c main_v11 = A2) (n : Fin 50000) (j : Fin 64) :
    (Hand.dat2 (F := Ideal) V c).arrAt 4 cfg2.N (ValueIdx.ix2 n j)
      = (∑ k : Fin 64, A0 (ValueIdx.ix2 n k) * A1 (ValueIdx.ix2 k j)) * A2 (ValueIdx.ix2 n (0 : Fin 1)) := by
  subst hA0; subst hA1; subst hA2
  exact congrFun (final2_4 V c) (ValueIdx.ix2 n j)

end Cert.KernelIdeal.Val

end
-- ==== Proof.KI.ValStage2_3.lean ====
/- What the second call of a layer leaves in its output array, over the extended reals:
   out[n, j] = max (d[n] * a[n, j] + p[n, j] * (d[n] * d[n]) + b[j]) 0.
   Point t writes block t of it, and the ten blocks cover the array. -/
import proofs.«415099_j43559558316604_1_alg».proof.Proof.KI.Stage2_3
import proofs.«415099_j43559558316604_1_alg».proof.Proof.KI.ValStage2_1
import proofs.«415099_j43559558316604_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay3_1_apply (d : Vec Ideal S5000x1 .f32) (a : Vec Ideal S5000x64 .f32) (q : Vec Ideal S5000x64 .f32)
    (b : Vec Ideal S1x64 .f32) (p : Fin 5000) (j : Fin 64) :
    k3_pay1 (F := Ideal) d a q b (ix2 p j)
      = max (d (ix2 p (0 : Fin 1)) * a (ix2 p j) + q (ix2 p j) * (d (ix2 p (0 : Fin 1)) * d (ix2 p (0 : Fin 1))) + b (ix2 (0 : Fin 1) j))
          (Ideal.ofBits .f32 0x00000000#32) := by
  unfold k3_pay1
  show max (addf (F := Ideal) (φ := .f32) _ _ (ix2 p j)) (Ideal.ofBits .f32 0x00000000#32) = _
  rw [pre1_apply]

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem msgs3_apply (c : Dev nD) (t : Fin cfg3.N) (x : S5000x64.Idx) (i : S50000x64.Idx)
    (h0 : (i 0).val = 5000 * t.val + (x 0).val) (h1 : (i 1).val = (x 1).val) :
    (Hand.iblk3 V c 0 t : Vec Ideal S5000x64 .f32) x = (V c (Pipeline.arrRef spec3 0) : S50000x64.Idx → EReal) i := by
  obtain ⟨e0, e1, -⟩ := idx_facts3 t
  unfold Hand.iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * (x 0).val = (i 0).val; rw [e0, h0]; omega
  | ⟨1, _⟩ => show win3_0.index t (1 : Fin 2) * 64 + 1 * (x 1).val = (i 1).val; rw [e1, h1]; omega

theorem prods3_apply (c : Dev nD) (t : Fin cfg3.N) (x : S5000x64.Idx) (i : S50000x64.Idx)
    (h0 : (i 0).val = 5000 * t.val + (x 0).val) (h1 : (i 1).val = (x 1).val) :
    (Hand.iblk3 V c 1 t : Vec Ideal S5000x64 .f32) x = (V c (Pipeline.arrRef spec3 1) : S50000x64.Idx → EReal) i := by
  obtain ⟨-, -, e0, e1, -⟩ := idx_facts3 t
  unfold Hand.iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 5000 + 1 * (x 0).val = (i 0).val; rw [e0, h0]; omega
  | ⟨1, _⟩ => show win3_1.index t (1 : Fin 2) * 64 + 1 * (x 1).val = (i 1).val; rw [e1, h1]; omega

theorem col3_apply (c : Dev nD) (t : Fin cfg3.N) (x : S5000x1.Idx) (i : S50000x1.Idx)
    (h0 : (i 0).val = 5000 * t.val + (x 0).val) :
    (Hand.iblk3 V c 2 t : Vec Ideal S5000x1 .f32) x = (V c (Pipeline.arrRef spec3 2) : S50000x1.Idx → EReal) i := by
  obtain ⟨-, -, -, -, e0, e1, -⟩ := idx_facts3 t
  unfold Hand.iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 5000 + 1 * (x 0).val = (i 0).val; rw [e0, h0]; omega
  | ⟨1, _⟩ =>
    show win3_2.index t (1 : Fin 2) * 1 + 1 * (x 1).val = (i 1).val
    have hx : (x 1).val < 1 := (x 1).isLt
    have hi : (i 1).val < 1 := (i 1).isLt
    rw [e1]; omega

theorem bias3_apply (c : Dev nD) (t : Fin cfg3.N) (x : S1x64.Idx) :
    (Hand.iblk3 V c 3 t : Vec Ideal S1x64 .f32) x = (V c (Pipeline.arrRef spec3 3) : S1x64.Idx → EReal) x := by
  obtain ⟨-, -, -, -, -, -, e0, e1, -⟩ := idx_facts3 t
  unfold Hand.iblk3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 1 + 1 * (x 0).val = (x 0).val; rw [e0]; omega
  | ⟨1, _⟩ => show win3_3.index t (1 : Fin 2) * 64 + 1 * (x 1).val = (x 1).val; rw [e1]; omega

theorem emb3_4_val (t : Fin cfg3.N) (y : S5000x64.Idx) :
    (((((cfg3.win 4).blk t).view.emb y : S50000x64.Idx) 0).val = 5000 * t.val + (y 0).val)
    ∧ (((((cfg3.win 4).blk t).view.emb y : S50000x64.Idx) 1).val = (y 1).val) := by
  obtain ⟨-, -, -, -, -, -, -, -, e0, e1⟩ := idx_facts3 t
  constructor
  · show win3_4.index t (0 : Fin 2) * 5000 + 1 * (y 0).val = _; rw [e0]; omega
  · show win3_4.index t (1 : Fin 2) * 64 + 1 * (y 1).val = _; rw [e1]; omega

theorem bias3_col (c : Dev nD) (t : Fin cfg3.N) (j : Fin 64) (i : S50000x64.Idx) (h1 : (i 1).val = j.val) :
    (Hand.iblk3 V c 3 t : Vec Ideal S1x64 .f32) (ix2 (0 : Fin 1) j)
      = (V c (Pipeline.arrRef spec3 3) : S1x64.Idx → EReal) (ix2 (0 : Fin 1) (n1 := 64) (i 1)) :=
  (bias3_apply V c t (ix2 (0 : Fin 1) j)).trans (congrArg _ (funext fun a => Fin.ext (by
    match a with
    | ⟨0, _⟩ => rfl
    | ⟨1, _⟩ => exact h1.symm)))

theorem block3_4_eq (c : Dev nD) (t : Fin cfg3.N) (y : S5000x64.Idx) :
    k3_pay1 (F := Ideal) (Hand.iblk3 V c 2 t) (Hand.iblk3 V c 0 t) (Hand.iblk3 V c 1 t) (Hand.iblk3 V c 3 t) y
      = combArr1 (V c (Pipeline.arrRef spec3 0)) (V c (Pipeline.arrRef spec3 1)) (V c (Pipeline.arrRef spec3 2))
          (V c (Pipeline.arrRef spec3 3)) (((cfg3.win 4).blk t).view.emb y) := by
  obtain ⟨h0, h1⟩ := emb3_4_val t y
  obtain ⟨p, j, rfl⟩ : ∃ (p : Fin 5000) (j : Fin 64), y = ix2 p j := ⟨y 0, y 1, eq_ix2 y⟩
  refine (pay3_1_apply (Hand.iblk3 V c 2 t) (Hand.iblk3 V c 0 t) (Hand.iblk3 V c 1 t) (Hand.iblk3 V c 3 t) p j).trans ?_
  exact congrArg (fun v : EReal => max v (Ideal.ofBits .f32 0x00000000#32))
    (preBlock1_eq (Hand.iblk3 V c 2 t) (Hand.iblk3 V c 0 t) (Hand.iblk3 V c 1 t) (Hand.iblk3 V c 3 t)
      (V c (Pipeline.arrRef spec3 0)) (V c (Pipeline.arrRef spec3 1)) (V c (Pipeline.arrRef spec3 2)) (V c (Pipeline.arrRef spec3 3))
      p j (((cfg3.win 4).blk t).view.emb (ix2 p j))
      (msgs3_apply V c t (ix2 p j) _ h0 h1) (prods3_apply V c t (ix2 p j) _ h0 h1)
      (col3_apply V c t (ix2 p (0 : Fin 1)) _ h0) (bias3_col V c t j _ h1))

theorem flushed3_4_eq (c : Dev nD) (t : Fin cfg3.N) :
    (Hand.dat3 V c).flushed 4 t
      = ((cfg3.win 4).blk t).view.read (Elt Ideal)
          (combArr1 (V c (Pipeline.arrRef spec3 0)) (V c (Pipeline.arrRef spec3 1)) (V c (Pipeline.arrRef spec3 2))
            (V c (Pipeline.arrRef spec3 3))) := by
  show (cfg3.win 4).cut (grid3.coords t) ((Hand.dat3 V c).after 4 t) = _
  rw [Hand.after3_4]
  unfold Hand.out3_4
  rw [View.canon_unit_zero hz1]
  simp only [View.ld_unit_zero (S := S5000x64) hz1, View.ld_unit_zero (S := S5000x1) hz1, View.ld_unit_zero (S := S1x64) hz1]
  funext y
  exact block3_4_eq V c t y

theorem mem_blk3_4 (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole (Pipeline.arrRef spec3 4)).slice (win3_4.rect t)).set ↔ _
  rw [View.set_slice_whole, Rect.mem_set_unit]
  exact Iff.rfl

theorem cover3_4 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 5000 := ⟨⟨(i 0).val / 5000, by rw [show cfg3.N = 10 from N_3]; omega⟩, rfl⟩
  obtain ⟨-, -, -, -, -, -, -, -, e0, e1⟩ := idx_facts3 t
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; rw [e0]; omega
  | ⟨1, _⟩ => show win3_4.index t (1 : Fin 2) * 64 ≤ (i 1).val ∧ (i 1).val < win3_4.index t (1 : Fin 2) * 64 + 64; rw [e1]; omega

-- Every index lies in some point's block, and each point writes the whole array's block there.
theorem final3_4 (c : Dev nD) :
    (Hand.dat3 V c).arrAt 4 cfg3.N
      = combArr1 (V c (Pipeline.arrRef spec3 0)) (V c (Pipeline.arrRef spec3 1)) (V c (Pipeline.arrRef spec3 2))
          (V c (Pipeline.arrRef spec3 3)) :=
  (Hand.dat3 V c).arrAt_eq_of_cover 4 _ (fun t _ => flushed3_4_eq V c t) cover3_4

theorem comb3_apply (c : Dev nD) (A0 A1 : S50000x64.Idx → EReal) (A2 : S50000x1.Idx → EReal) (A3 : S1x64.Idx → EReal)
    (hA0 : V c main_v40 = A0) (hA1 : V c main_v30_0 = A1) (hA2 : V c main_v11 = A2) (hA3 : V c main_v41 = A3)
    (n : Fin 50000) (j : Fin 64) :
    (Hand.dat3 (F := Ideal) V c).arrAt 4 cfg3.N (ValueIdx.ix2 n j)
      = max (A2 (ValueIdx.ix2 n (0 : Fin 1)) * A0 (ValueIdx.ix2 n j)
          + A1 (ValueIdx.ix2 n j) * (A2 (ValueIdx.ix2 n (0 : Fin 1)) * A2 (ValueIdx.ix2 n (0 : Fin 1)))
          + A3 (ValueIdx.ix2 (0 : Fin 1) j)) (Ideal.ofBits .f32 0x00000000#32) := by
  subst hA0; subst hA1; subst hA2; subst hA3
  exact congrFun (final3_4 V c) (ValueIdx.ix2 n j)

end Cert.KernelIdeal.Val

end
-- ==== Proof.KI.ValStage1_4.lean ====
/- What the first call of a layer leaves in its two output arrays, over the extended reals:
   product[n, j] = Sum_k rows[n, k] * weights[k, j] and scaled[n, j] = product[n, j] * column[n, 0].
   Point t writes block t of these, row r lies in the block of point r / 5000, and the ten blocks cover the arrays. -/
import proofs.«415099_j43559558316604_1_alg».proof.Proof.KI.Stage1_4
import proofs.«415099_j43559558316604_1_alg».proof.Proof.KI.ValStage1_0
import proofs.«415099_j43559558316604_1_alg».proof.Proof.LibPlainDot
import proofs.«415099_j43559558316604_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

-- The product block at (p, j): row p of the rows block times column j of the weights.
theorem pay4_1_apply (x0 : Vec Ideal S5000x64 .f32) (x1 : Vec Ideal S64x64 .f32) (p : Fin 5000) (j : Fin 64) :
    k4_pay1 (F := Ideal) x0 x1 (ix2 p j) = ∑ k : Fin 64, x0 (ix2 p k) * x1 (ix2 k j) := by
  unfold k4_pay1
  rw [shapeCast_self, dot0_eq_plain]
  exact PlainDot.matmul_zero_apply 5000 64 64 none (truncf .bf16 x0 bitsLt_bf16_f32) (truncf .bf16 x1 bitsLt_bf16_f32) p j

theorem pay4_2_apply (x0 : Vec Ideal S5000x64 .f32) (x1 : Vec Ideal S64x64 .f32) (x2 : Vec Ideal S5000x1 .f32)
    (p : Fin 5000) (j : Fin 64) :
    k4_pay2 (F := Ideal) x0 x1 x2 (ix2 p j) = (∑ k : Fin 64, x0 (ix2 p k) * x1 (ix2 k j)) * x2 (ix2 p (0 : Fin 1)) := by
  unfold k4_pay2
  show k4_pay1 (F := Ideal) x0 x1 (ix2 p j) * broadcastTo S5000x64 (shapeCast S5000x1 x2 shapeCasts_S5000x1_S5000x1) broadcasts_S5000x1_S5000x64 (ix2 p j) = _
  rw [pay4_1_apply, shapeCast_self]
  exact congrArg _ (KeepdimsColumn.broadcastTo_a1_ab_apply x2 broadcasts_S5000x1_S5000x64 p j)

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

theorem rows4_apply (c : Dev nD) (t : Fin cfg4.N) (x : S5000x64.Idx) (i : S50000x64.Idx)
    (h0 : (i 0).val = 5000 * t.val + (x 0).val) (h1 : (i 1).val = (x 1).val) :
    (Hand.iblk4 V c 0 t : Vec Ideal S5000x64 .f32) x = (V c (Pipeline.arrRef spec4 0) : S50000x64.Idx → EReal) i := by
  obtain ⟨e0, e1, -⟩ := idx_facts4 t
  unfold Hand.iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 5000 + 1 * (x 0).val = (i 0).val; rw [e0, h0]; omega
  | ⟨1, _⟩ => show win4_0.index t (1 : Fin 2) * 64 + 1 * (x 1).val = (i 1).val; rw [e1, h1]; omega

theorem wts4_apply (c : Dev nD) (t : Fin cfg4.N) (x : S64x64.Idx) :
    (Hand.iblk4 V c 1 t : Vec Ideal S64x64 .f32) x = (V c (Pipeline.arrRef spec4 1) : S64x64.Idx → EReal) x := by
  obtain ⟨-, -, e0, e1, -⟩ := idx_facts4 t
  unfold Hand.iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 64 + 1 * (x 0).val = (x 0).val; rw [e0]; omega
  | ⟨1, _⟩ => show win4_1.index t (1 : Fin 2) * 64 + 1 * (x 1).val = (x 1).val; rw [e1]; omega

theorem col4_apply (c : Dev nD) (t : Fin cfg4.N) (x : S5000x1.Idx) (i : S50000x1.Idx)
    (h0 : (i 0).val = 5000 * t.val + (x 0).val) :
    (Hand.iblk4 V c 2 t : Vec Ideal S5000x1 .f32) x = (V c (Pipeline.arrRef spec4 2) : S50000x1.Idx → EReal) i := by
  obtain ⟨-, -, -, -, e0, e1, -⟩ := idx_facts4 t
  unfold Hand.iblk4
  rw [View.read_apply]
  show V c (Pipeline.arrRef spec4 2) _ = V c (Pipeline.arrRef spec4 2) _
  refine congrArg _ (funext fun a => Fin.ext ?_)
  match a with
  | ⟨0, _⟩ => show win4_2.index t (0 : Fin 2) * 5000 + 1 * (x 0).val = (i 0).val; rw [e0, h0]; omega
  | ⟨1, _⟩ =>
    show win4_2.index t (1 : Fin 2) * 1 + 1 * (x 1).val = (i 1).val
    have hx : (x 1).val < 1 := (x 1).isLt
    have hi : (i 1).val < 1 := (i 1).isLt
    rw [e1]; omega

theorem emb4_3_val (t : Fin cfg4.N) (y : S5000x64.Idx) :
    (((((cfg4.win 3).blk t).view.emb y : S50000x64.Idx) 0).val = 5000 * t.val + (y 0).val)
    ∧ (((((cfg4.win 3).blk t).view.emb y : S50000x64.Idx) 1).val = (y 1).val) := by
  obtain ⟨-, -, -, -, -, -, e0, e1, -⟩ := idx_facts4 t
  constructor
  · show win4_3.index t (0 : Fin 2) * 5000 + 1 * (y 0).val = _; rw [e0]; omega
  · show win4_3.index t (1 : Fin 2) * 64 + 1 * (y 1).val = _; rw [e1]; omega

theorem emb4_4_val (t : Fin cfg4.N) (y : S5000x64.Idx) :
    (((((cfg4.win 4).blk t).view.emb y : S50000x64.Idx) 0).val = 5000 * t.val + (y 0).val)
    ∧ (((((cfg4.win 4).blk t).view.emb y : S50000x64.Idx) 1).val = (y 1).val) := by
  obtain ⟨-, -, -, -, -, -, -, -, e0, e1⟩ := idx_facts4 t
  constructor
  · show win4_4.index t (0 : Fin 2) * 5000 + 1 * (y 0).val = _; rw [e0]; omega
  · show win4_4.index t (1 : Fin 2) * 64 + 1 * (y 1).val = _; rw [e1]; omega

theorem rows4_row (c : Dev nD) (t : Fin cfg4.N) (p : Fin 5000) (i : S50000x64.Idx)
    (h0 : (i 0).val = 5000 * t.val + p.val) (k : Fin 64) :
    (Hand.iblk4 V c 0 t : Vec Ideal S5000x64 .f32) (ix2 p k)
      = (V c (Pipeline.arrRef spec4 0) : S50000x64.Idx → EReal) (ix2 (n0 := 50000) (i 0) k) :=
  rows4_apply V c t (ix2 p k) (ix2 (n0 := 50000) (i 0) k) h0 rfl

theorem wts4_col (c : Dev nD) (t : Fin cfg4.N) (j : Fin 64) (i : S50000x64.Idx) (h1 : (i 1).val = j.val) (k : Fin 64) :
    (Hand.iblk4 V c 1 t : Vec Ideal S64x64 .f32) (ix2 k j)
      = (V c (Pipeline.arrRef spec4 1) : S64x64.Idx → EReal) (ix2 k (n1 := 64) (i 1)) :=
  (wts4_apply V c t (ix2 k j)).trans (congrArg _ (funext fun a => Fin.ext (by
    match a with
    | ⟨0, _⟩ => rfl
    | ⟨1, _⟩ => exact h1.symm)))

theorem block4_3_eq (c : Dev nD) (t : Fin cfg4.N) (y : S5000x64.Idx) :
    k4_pay1 (F := Ideal) (Hand.iblk4 V c 0 t) (Hand.iblk4 V c 1 t) y
      = prodArr0 (V c (Pipeline.arrRef spec4 0)) (V c (Pipeline.arrRef spec4 1)) (((cfg4.win 3).blk t).view.emb y) := by
  obtain ⟨h0, h1⟩ := emb4_3_val t y
  obtain ⟨p, j, rfl⟩ : ∃ (p : Fin 5000) (j : Fin 64), y = ix2 p j := ⟨y 0, y 1, eq_ix2 y⟩
  exact (pay4_1_apply (Hand.iblk4 V c 0 t) (Hand.iblk4 V c 1 t) p j).trans
    (prodBlock0_eq (Hand.iblk4 V c 0 t) (Hand.iblk4 V c 1 t) (V c (Pipeline.arrRef spec4 0)) (V c (Pipeline.arrRef spec4 1)) p j
      (((cfg4.win 3).blk t).view.emb (ix2 p j)) (rows4_row V c t p _ h0) (wts4_col V c t j _ h1))

theorem block4_4_eq (c : Dev nD) (t : Fin cfg4.N) (y : S5000x64.Idx) :
    k4_pay2 (F := Ideal) (Hand.iblk4 V c 0 t) (Hand.iblk4 V c 1 t) (Hand.iblk4 V c 2 t) y
      = scaledArr0 (V c (Pipeline.arrRef spec4 0)) (V c (Pipeline.arrRef spec4 1)) (V c (Pipeline.arrRef spec4 2))
          (((cfg4.win 4).blk t).view.emb y) := by
  obtain ⟨h0, h1⟩ := emb4_4_val t y
  obtain ⟨p, j, rfl⟩ : ∃ (p : Fin 5000) (j : Fin 64), y = ix2 p j := ⟨y 0, y 1, eq_ix2 y⟩
  refine (pay4_2_apply (Hand.iblk4 V c 0 t) (Hand.iblk4 V c 1 t) (Hand.iblk4 V c 2 t) p j).trans ?_
  exact congrArg₂ (· * ·)
    (prodBlock0_eq (Hand.iblk4 V c 0 t) (Hand.iblk4 V c 1 t) (V c (Pipeline.arrRef spec4 0)) (V c (Pipeline.arrRef spec4 1)) p j
      (((cfg4.win 4).blk t).view.emb (ix2 p j)) (rows4_row V c t p _ h0) (wts4_col V c t j _ h1))
    (col4_apply V c t (ix2 p (0 : Fin 1)) (ix2 (n0 := 50000) ((((cfg4.win 4).blk t).view.emb (ix2 p j) : S50000x64.Idx) 0) (0 : Fin 1)) h0)

theorem flushed4_3_eq (c : Dev nD) (t : Fin cfg4.N) :
    (Hand.dat4 V c).flushed 3 t
      = ((cfg4.win 3).blk t).view.read (Elt Ideal) (prodArr0 (V c (Pipeline.arrRef spec4 0)) (V c (Pipeline.arrRef spec4 1))) := by
  show (cfg4.win 3).cut (grid4.coords t) ((Hand.dat4 V c).after 3 t) = _
  rw [Hand.after4_3]
  unfold Hand.out4_3
  rw [View.canon_unit_zero hz0]
  simp only [View.ld_unit_zero (S := S5000x64) hz0, View.ld_unit_zero (S := S64x64) hz0]
  funext y
  exact block4_3_eq V c t y

theorem flushed4_4_eq (c : Dev nD) (t : Fin cfg4.N) :
    (Hand.dat4 V c).flushed 4 t
      = ((cfg4.win 4).blk t).view.read (Elt Ideal)
          (scaledArr0 (V c (Pipeline.arrRef spec4 0)) (V c (Pipeline.arrRef spec4 1)) (V c (Pipeline.arrRef spec4 2))) := by
  show (cfg4.win 4).cut (grid4.coords t) ((Hand.dat4 V c).after 4 t) = _
  rw [Hand.after4_4]
  unfold Hand.out4_4
  rw [View.canon_unit_zero hz0]
  simp only [View.ld_unit_zero (S := S5000x64) hz0, View.ld_unit_zero (S := S64x64) hz0, View.ld_unit_zero (S := S5000x1) hz0]
  funext y
  exact block4_4_eq V c t y

theorem mem_blk4_3 (t : Fin cfg4.N) (i : S50000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole (Pipeline.arrRef spec4 3)).slice (win4_3.rect t)).set ↔ _
  rw [View.set_slice_whole, Rect.mem_set_unit]
  exact Iff.rfl

theorem mem_blk4_4 (t : Fin cfg4.N) (i : S50000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole (Pipeline.arrRef spec4 4)).slice (win4_4.rect t)).set ↔ _
  rw [View.set_slice_whole, Rect.mem_set_unit]
  exact Iff.rfl

theorem cover4_3 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ : ∃ t : Fin cfg4.N, t.val = (i 0).val / 5000 := ⟨⟨(i 0).val / 5000, by rw [show cfg4.N = 10 from N_4]; omega⟩, rfl⟩
  obtain ⟨-, -, -, -, -, -, e0, e1, -⟩ := idx_facts4 t
  refine ⟨t, flush4_3 t, ?_⟩
  rw [mem_blk4_3]
  intro a
  match a with
  | ⟨0, _⟩ => show win4_3.index t (0 : Fin 2) * 5000 ≤ (i 0).val ∧ (i 0).val < win4_3.index t (0 : Fin 2) * 5000 + 5000; rw [e0]; omega
  | ⟨1, _⟩ => show win4_3.index t (1 : Fin 2) * 64 ≤ (i 1).val ∧ (i 1).val < win4_3.index t (1 : Fin 2) * 64 + 64; rw [e1]; omega

theorem cover4_4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  obtain ⟨t, ht⟩ : ∃ t : Fin cfg4.N, t.val = (i 0).val / 5000 := ⟨⟨(i 0).val / 5000, by rw [show cfg4.N = 10 from N_4]; omega⟩, rfl⟩
  obtain ⟨-, -, -, -, -, -, -, -, e0, e1⟩ := idx_facts4 t
  refine ⟨t, flush4_4 t, ?_⟩
  rw [mem_blk4_4]
  intro a
  match a with
  | ⟨0, _⟩ => show win4_4.index t (0 : Fin 2) * 5000 ≤ (i 0).val ∧ (i 0).val < win4_4.index t (0 : Fin 2) * 5000 + 5000; rw [e0]; omega
  | ⟨1, _⟩ => show win4_4.index t (1 : Fin 2) * 64 ≤ (i 1).val ∧ (i 1).val < win4_4.index t (1 : Fin 2) * 64 + 64; rw [e1]; omega

-- Every index lies in some point's block, and each point writes the whole product's block there.
theorem final4_3 (c : Dev nD) :
    (Hand.dat4 V c).arrAt 3 cfg4.N = prodArr0 (V c (Pipeline.arrRef spec4 0)) (V c (Pipeline.arrRef spec4 1)) :=
  (Hand.dat4 V c).arrAt_eq_of_cover 3 _ (fun t _ => flushed4_3_eq V c t) cover4_3

theorem final4_4 (c : Dev nD) :
    (Hand.dat4 V c).arrAt 4 cfg4.N
      = scaledArr0 (V c (Pipeline.arrRef spec4 0)) (V c (Pipeline.arrRef spec4 1)) (V c (Pipeline.arrRef spec4 2)) :=
  (Hand.dat4 V c).arrAt_eq_of_cover 4 _ (fun t _ => flushed4_4_eq V c t) cover4_4

theorem prod4_apply (c : Dev nD) (A0 : S50000x64.Idx → EReal) (A1 : S64x64.Idx → EReal)
    (hA0 : V c main_v42 = A0) (hA1 : V c main_arg7 = A1) (n : Fin 50000) (j : Fin 64) :
    (Hand.dat4 (F := Ideal) V c).arrAt 3 cfg4.N (ValueIdx.ix2 n j) = ∑ k : Fin 64, A0 (ValueIdx.ix2 n k) * A1 (ValueIdx.ix2 k j) := by
  subst hA0; subst hA1
  exact congrFun (final4_3 V c) (ValueIdx.ix2 n j)

theorem scaled4_apply (c : Dev nD) (A0 : S50000x64.Idx → EReal) (A1 : S64x64.Idx → EReal) (A2 : S50000x1.Idx → EReal)
    (hA0 : V c main_v42 = A0) (hA1 : V c main_arg7 = A1) (hA2 : V c main_v11 = A2) (n : Fin 50000) (j : Fin 64) :
    (Hand.dat4 (F := Ideal) V c).arrAt 4 cfg4.N (ValueIdx.ix2 n j)
      = (∑ k : Fin 64, A0 (ValueIdx.ix2 n k) * A1 (ValueIdx.ix2 k j)) * A2 (ValueIdx.ix2 n (0 : Fin 1)) := by
  subst hA0; subst hA1; subst hA2
  exact congrFun (final4_4 V c) (ValueIdx.ix2 n j)

end Cert.KernelIdeal.Val

end
-- ==== Proof.KI.ValStage2_5.lean ====
/- What the second call of the last layer leaves in its output array, over the extended reals:
   out[n, j] = d[n] * a[n, j] + p[n, j] * (d[n] * d[n]) + b[j], with no cut at zero. -/
import proofs.«415099_j43559558316604_1_alg».proof.Proof.KI.Stage2_5
import proofs.«415099_j43559558316604_1_alg».proof.Proof.KI.ValStage2_1
import proofs.«415099_j43559558316604_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay5_1_apply (d : Vec Ideal S5000x1 .f32) (a : Vec Ideal S5000x64 .f32) (q : Vec Ideal S5000x64 .f32)
    (b : Vec Ideal S1x64 .f32) (p : Fin 5000) (j : Fin 64) :
    k5_pay1 (F := Ideal) d a q b (ix2 p j)
      = d (ix2 p (0 : Fin 1)) * a (ix2 p j) + q (ix2 p j) * (d (ix2 p (0 : Fin 1)) * d (ix2 p (0 : Fin 1))) + b (ix2 (0 : Fin 1) j) := by
  unfold k5_pay1
  exact pre1_apply d a q b p j

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem msgs5_apply (c : Dev nD) (t : Fin cfg5.N) (x : S5000x64.Idx) (i : S50000x64.Idx)
    (h0 : (i 0).val = 5000 * t.val + (x 0).val) (h1 : (i 1).val = (x 1).val) :
    (Hand.iblk5 V c 0 t : Vec Ideal S5000x64 .f32) x = (V c (Pipeline.arrRef spec5 0) : S50000x64.Idx → EReal) i := by
  obtain ⟨e0, e1, -⟩ := idx_facts5 t
  unfold Hand.iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 5000 + 1 * (x 0).val = (i 0).val; rw [e0, h0]; omega
  | ⟨1, _⟩ => show win5_0.index t (1 : Fin 2) * 64 + 1 * (x 1).val = (i 1).val; rw [e1, h1]; omega

theorem prods5_apply (c : Dev nD) (t : Fin cfg5.N) (x : S5000x64.Idx) (i : S50000x64.Idx)
    (h0 : (i 0).val = 5000 * t.val + (x 0).val) (h1 : (i 1).val = (x 1).val) :
    (Hand.iblk5 V c 1 t : Vec Ideal S5000x64 .f32) x = (V c (Pipeline.arrRef spec5 1) : S50000x64.Idx → EReal) i := by
  obtain ⟨-, -, e0, e1, -⟩ := idx_facts5 t
  unfold Hand.iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 5000 + 1 * (x 0).val = (i 0).val; rw [e0, h0]; omega
  | ⟨1, _⟩ => show win5_1.index t (1 : Fin 2) * 64 + 1 * (x 1).val = (i 1).val; rw [e1, h1]; omega

theorem col5_apply (c : Dev nD) (t : Fin cfg5.N) (x : S5000x1.Idx) (i : S50000x1.Idx)
    (h0 : (i 0).val = 5000 * t.val + (x 0).val) :
    (Hand.iblk5 V c 2 t : Vec Ideal S5000x1 .f32) x = (V c (Pipeline.arrRef spec5 2) : S50000x1.Idx → EReal) i := by
  obtain ⟨-, -, -, -, e0, e1, -⟩ := idx_facts5 t
  unfold Hand.iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 5000 + 1 * (x 0).val = (i 0).val; rw [e0, h0]; omega
  | ⟨1, _⟩ =>
    show win5_2.index t (1 : Fin 2) * 1 + 1 * (x 1).val = (i 1).val
    have hx : (x 1).val < 1 := (x 1).isLt
    have hi : (i 1).val < 1 := (i 1).isLt
    rw [e1]; omega

theorem bias5_apply (c : Dev nD) (t : Fin cfg5.N) (x : S1x64.Idx) :
    (Hand.iblk5 V c 3 t : Vec Ideal S1x64 .f32) x = (V c (Pipeline.arrRef spec5 3) : S1x64.Idx → EReal) x := by
  obtain ⟨-, -, -, -, -, -, e0, e1, -⟩ := idx_facts5 t
  unfold Hand.iblk5
  rw [View.read_apply]
  show V c (Pipeline.arrRef spec5 3) _ = V c (Pipeline.arrRef spec5 3) _
  refine congrArg _ (funext fun a => Fin.ext ?_)
  match a with
  | ⟨0, _⟩ => show win5_3.index t (0 : Fin 2) * 1 + 1 * (x 0).val = (x 0).val; rw [e0]; omega
  | ⟨1, _⟩ => show win5_3.index t (1 : Fin 2) * 64 + 1 * (x 1).val = (x 1).val; rw [e1]; omega

theorem emb5_4_val (t : Fin cfg5.N) (y : S5000x64.Idx) :
    (((((cfg5.win 4).blk t).view.emb y : S50000x64.Idx) 0).val = 5000 * t.val + (y 0).val)
    ∧ (((((cfg5.win 4).blk t).view.emb y : S50000x64.Idx) 1).val = (y 1).val) := by
  obtain ⟨-, -, -, -, -, -, -, -, e0, e1⟩ := idx_facts5 t
  constructor
  · show win5_4.index t (0 : Fin 2) * 5000 + 1 * (y 0).val = _; rw [e0]; omega
  · show win5_4.index t (1 : Fin 2) * 64 + 1 * (y 1).val = _; rw [e1]; omega

theorem bias5_col (c : Dev nD) (t : Fin cfg5.N) (j : Fin 64) (i : S50000x64.Idx) (h1 : (i 1).val = j.val) :
    (Hand.iblk5 V c 3 t : Vec Ideal S1x64 .f32) (ix2 (0 : Fin 1) j)
      = (V c (Pipeline.arrRef spec5 3) : S1x64.Idx → EReal) (ix2 (0 : Fin 1) (n1 := 64) (i 1)) :=
  (bias5_apply V c t (ix2 (0 : Fin 1) j)).trans (congrArg _ (funext fun a => Fin.ext (by
    match a with
    | ⟨0, _⟩ => rfl
    | ⟨1, _⟩ => exact h1.symm)))

theorem block5_4_eq (c : Dev nD) (t : Fin cfg5.N) (y : S5000x64.Idx) :
    k5_pay1 (F := Ideal) (Hand.iblk5 V c 2 t) (Hand.iblk5 V c 0 t) (Hand.iblk5 V c 1 t) (Hand.iblk5 V c 3 t) y
      = preArr1 (V c (Pipeline.arrRef spec5 0)) (V c (Pipeline.arrRef spec5 1)) (V c (Pipeline.arrRef spec5 2))
          (V c (Pipeline.arrRef spec5 3)) (((cfg5.win 4).blk t).view.emb y) := by
  obtain ⟨h0, h1⟩ := emb5_4_val t y
  obtain ⟨p, j, rfl⟩ : ∃ (p : Fin 5000) (j : Fin 64), y = ix2 p j := ⟨y 0, y 1, eq_ix2 y⟩
  refine (pay5_1_apply (Hand.iblk5 V c 2 t) (Hand.iblk5 V c 0 t) (Hand.iblk5 V c 1 t) (Hand.iblk5 V c 3 t) p j).trans ?_
  exact (preBlock1_eq (Hand.iblk5 V c 2 t) (Hand.iblk5 V c 0 t) (Hand.iblk5 V c 1 t) (Hand.iblk5 V c 3 t)
      (V c (Pipeline.arrRef spec5 0)) (V c (Pipeline.arrRef spec5 1)) (V c (Pipeline.arrRef spec5 2)) (V c (Pipeline.arrRef spec5 3))
      p j (((cfg5.win 4).blk t).view.emb (ix2 p j))
      (msgs5_apply V c t (ix2 p j) _ h0 h1) (prods5_apply V c t (ix2 p j) _ h0 h1)
      (col5_apply V c t (ix2 p (0 : Fin 1)) _ h0) (bias5_col V c t j _ h1))

theorem flushed5_4_eq (c : Dev nD) (t : Fin cfg5.N) :
    (Hand.dat5 V c).flushed 4 t
      = ((cfg5.win 4).blk t).view.read (Elt Ideal)
          (preArr1 (V c (Pipeline.arrRef spec5 0)) (V c (Pipeline.arrRef spec5 1)) (V c (Pipeline.arrRef spec5 2))
            (V c (Pipeline.arrRef spec5 3))) := by
  show (cfg5.win 4).cut (grid5.coords t) ((Hand.dat5 V c).after 4 t) = _
  rw [Hand.after5_4]
  unfold Hand.out5_4
  rw [View.canon_unit_zero hz1]
  simp only [View.ld_unit_zero (S := S5000x64) hz1, View.ld_unit_zero (S := S5000x1) hz1, View.ld_unit_zero (S := S1x64) hz1]
  funext y
  exact block5_4_eq V c t y

theorem mem_blk5_4 (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole (Pipeline.arrRef spec5 4)).slice (win5_4.rect t)).set ↔ _
  rw [View.set_slice_whole, Rect.mem_set_unit]
  exact Iff.rfl

theorem cover5_4 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ : ∃ t : Fin cfg5.N, t.val = (i 0).val / 5000 := ⟨⟨(i 0).val / 5000, by rw [show cfg5.N = 10 from N_5]; omega⟩, rfl⟩
  obtain ⟨-, -, -, -, -, -, -, -, e0, e1⟩ := idx_facts5 t
  refine ⟨t, flush5_4 t, ?_⟩
  rw [mem_blk5_4]
  intro a
  match a with
  | ⟨0, _⟩ => show win5_4.index t (0 : Fin 2) * 5000 ≤ (i 0).val ∧ (i 0).val < win5_4.index t (0 : Fin 2) * 5000 + 5000; rw [e0]; omega
  | ⟨1, _⟩ => show win5_4.index t (1 : Fin 2) * 64 ≤ (i 1).val ∧ (i 1).val < win5_4.index t (1 : Fin 2) * 64 + 64; rw [e1]; omega

-- Every index lies in some point's block, and each point writes the whole array's block there.
theorem final5_4 (c : Dev nD) :
    (Hand.dat5 V c).arrAt 4 cfg5.N
      = preArr1 (V c (Pipeline.arrRef spec5 0)) (V c (Pipeline.arrRef spec5 1)) (V c (Pipeline.arrRef spec5 2))
          (V c (Pipeline.arrRef spec5 3)) :=
  (Hand.dat5 V c).arrAt_eq_of_cover 4 _ (fun t _ => flushed5_4_eq V c t) cover5_4

theorem comb5_apply (c : Dev nD) (A0 A1 : S50000x64.Idx → EReal) (A2 : S50000x1.Idx → EReal) (A3 : S1x64.Idx → EReal)
    (hA0 : V c main_v53 = A0) (hA1 : V c main_v43_0 = A1) (hA2 : V c main_v11 = A2) (hA3 : V c main_v54 = A3)
    (n : Fin 50000) (j : Fin 64) :
    (Hand.dat5 (F := Ideal) V c).arrAt 4 cfg5.N (ValueIdx.ix2 n j)
      = A2 (ValueIdx.ix2 n (0 : Fin 1)) * A0 (ValueIdx.ix2 n j)
          + A1 (ValueIdx.ix2 n j) * (A2 (ValueIdx.ix2 n (0 : Fin 1)) * A2 (ValueIdx.ix2 n (0 : Fin 1)))
          + A3 (ValueIdx.ix2 (0 : Fin 1) j) := by
  subst hA0; subst hA1; subst hA2; subst hA3
  exact congrFun (final5_4 V c) (ValueIdx.ix2 n j)

end Cert.KernelIdeal.Val

end
-- ==== Proof.Spec.lean ====
/- The two results as functions of the arguments, index by index, over the extended reals: the kernel program scales
   messages at the source and again at the target and sums a graph's rows block by block; the reference scales each
   message per edge and sums a graph's rows at once. -/
import Idealize.ShloMosaic.PureOps.Ideal
import Idealize.ShloMosaic.Lib.ValueIdx

noncomputable section

open scoped BigOperators

namespace Cert.Spec

open Idealize.ShloMosaic

abbrev Z : EReal := Ideal.ofBits .f32 0x00000000#32
abbrev O : EReal := Ideal.ofBits .f32 0x3F800000#32

def wrap (v : BitVec 32) : BitVec 32 := Scalar.select (IntOp.cmpi .slt v 0#32) (IntOp.addi v 50000#32) v

def node (v : BitVec 32) : Fin 50000 := ⟨min v.toInt.toNat (50000 - 1), by omega⟩

variable (src dst : Fin 1250000 → BitVec 32) (batch : Fin 50000 → BitVec 32)

def into (n : Fin 50000) : Finset (Fin 1250000) := Finset.univ.filter fun e => (dst e).toInt = (n.val : Int)

def deg (n : Fin 50000) : EReal := (Z + ∑ _e ∈ into dst n, O) + O

def dinv (n : Fin 50000) : EReal := Ideal.rsqrt (deg dst n)

def lin (h : Fin 50000 → Fin 64 → EReal) (W : Fin 64 → Fin 64 → EReal) (n : Fin 50000) (j : Fin 64) : EReal :=
  ∑ k : Fin 64, h n k * W k j

def act (relu : Bool) (v : EReal) : EReal := if relu then max v Z else v

def layerK (relu : Bool) (h : Fin 50000 → Fin 64 → EReal) (W : Fin 64 → Fin 64 → EReal) (b : Fin 64 → EReal)
    (n : Fin 50000) (j : Fin 64) : EReal :=
  act relu (dinv dst n * (Z + ∑ e ∈ into dst n, lin h W (node (wrap (src e))) j * dinv dst (node (wrap (src e))))
    + lin h W n j * (dinv dst n * dinv dst n) + b j)

def layerR (relu : Bool) (h : Fin 50000 → Fin 64 → EReal) (W : Fin 64 → Fin 64 → EReal) (b : Fin 64 → EReal)
    (n : Fin 50000) (j : Fin 64) : EReal :=
  act relu ((Z + ∑ e ∈ into dst n, lin h W (node (wrap (src e))) j
        * (dinv dst (node (wrap (src e))) * dinv dst (node (wrap (dst e)))))
    + lin h W n j * (dinv dst n * dinv dst n) + b j)

variable (x : Fin 50000 → Fin 64 → EReal) (W0 W1 W2 : Fin 64 → Fin 64 → EReal) (b0 b1 b2 : Fin 64 → EReal)
  (Wp : Fin 64 → EReal) (bp : EReal)

def netK : Fin 50000 → Fin 64 → EReal :=
  layerK src dst false (layerK src dst true (layerK src dst true x W0 b0) W1 b1) W2 b2
def netR : Fin 50000 → Fin 64 → EReal :=
  layerR src dst false (layerR src dst true (layerR src dst true x W0 b0) W1 b1) W2 b2

def members (g : Fin 64) : Finset (Fin 50000) := Finset.univ.filter fun n => (batch n).toInt = (g.val : Int)

def counts (g : Fin 64) : EReal := Z + ∑ _n ∈ members batch g, O

def onehot (n : Fin 50000) (g : Fin 64) : EReal :=
  FloatOps.sitofp (F := Ideal) .f32 ((IntOp.cmpi .eq (batch n) (BitVec.ofNat 32 g.val)).setWidth 32)

def row (t : Fin 10) (p : Fin 5000) : Fin 50000 := ⟨5000 * t.val + p.val, by omega⟩

def blockSum (h : Fin 50000 → Fin 64 → EReal) (t : Fin 10) (g j : Fin 64) : EReal :=
  ∑ p : Fin 5000, onehot batch (row t p) g * h (row t p) j

def accK (h : Fin 50000 → Fin 64 → EReal) : ℕ → Fin 64 → Fin 64 → EReal
  | 0 => fun _ _ => Z
  | k + 1 => fun g j => if hk : k < 10 then accK h k g j + blockSum batch h ⟨k, hk⟩ g j else accK h k g j

def poolK (h : Fin 50000 → Fin 64 → EReal) (g : Fin 64) : EReal :=
  (∑ j : Fin 64, Ideal.div (accK batch h 10 g j) (max (counts batch g) O) * Wp j) + bp

def poolR (h : Fin 50000 → Fin 64 → EReal) (g : Fin 64) : EReal :=
  (∑ j : Fin 64, Ideal.div (Z + ∑ n ∈ members batch g, h n j) (max (counts batch g) O) * Wp j) + bp

def resK (g : Fin 64) : EReal := poolK batch Wp bp (netK src dst x W0 W1 W2 b0 b1 b2) g
def resR (g : Fin 64) : EReal := poolR batch Wp bp (netR src dst x W0 W1 W2 b0 b1 b2) g

end Cert.Spec

end
-- ==== Proof.LibGatherScatter.lean ====
/- Gather and scatter-add read at an index, for the dimension numbers that indexing a vector or the rows of a matrix by
   an integer vector lowers to: a gather reads the operand at the index word clamped into range; a scatter-add sums
   the updates whose index word, read signed, is the target index. -/
import Idealize.ShloMosaic.PureOps.Ideal
import Idealize.ShloMosaic.Lib.ValueIdx

noncomputable section

open scoped BigOperators

namespace Idealize.ShloMosaic.GatherScatter

open Idealize.ShloMosaic Idealize.ShloMosaic.ValueIdx

section General
variable {s si u : Shape}

theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

theorem mem_kept {axes : List (Fin s.rank)} {a : Fin s.rank} (h : a ∉ axes) : a ∈ s.kept axes :=
  List.mem_filter.mpr ⟨List.mem_finRange a, by simpa using h⟩

theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

theorem operandIdx_val (d : GatherDims s si t) {w : Nat} (j : t.Idx) (idx : IVec si w) (a : Fin s.rank) :
    (d.operandIdx j idx a).val = d.start j idx a + d.batchCoord j a + d.offCoord j a := rfl

theorem batchCoord_of_nil (d : GatherDims s si t) (h : d.operandBatchingDims = []) (j : t.Idx) (a : Fin s.rank) :
    d.batchCoord j a = 0 :=
  d.batchCoord_eq_zero j a (by rw [h]; exact List.not_mem_nil)

theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

section VecScatter

abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

section VecGather
variable {α : Type}

abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

section RowScatter

abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

theorem rowScatter_window0 (j : (⟨2, ![M, C]⟩ : Shape).Idx) : (rowScatterDims N C M wf).window j 0 = 0 := by
  unfold ScatterDims.window
  rw [dif_neg (not_mem_kept (List.mem_singleton.mpr rfl))]

theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

section RowGather
variable {α : Type}

abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

section Sums

def idxEquiv1 {n : Nat} : (⟨1, ![n]⟩ : Shape).Idx ≃ Fin n where
  toFun i := i 0
  invFun a := ix1 a
  left_inv i := (eq_ix1 i).symm
  right_inv _ := rfl

theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.KI.ValHost.lean ====
/- What the host operations between the kernel calls compute, read at an index over the extended reals: degrees and
   their inverse square roots, rows gathered at clamped source words, rows summed at target words, graph sizes. -/
import proofs.«415099_j43559558316604_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«415099_j43559558316604_1_alg».proof.Proof.Spec
import proofs.«415099_j43559558316604_1_alg».proof.Proof.LibGatherScatter
import proofs.«415099_j43559558316604_1_alg».proof.Proof.LibKeepdimsColumn

set_option maxRecDepth 1116

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Idealize.ShloMosaic.GatherScatter Idealize.ShloMosaic.KeepdimsColumn

variable (m : (ℓ : Loc nD τ sig) → Buf (Elt Ideal) ℓ) (outs : Outs (F := Ideal))

section Layout
variable {α : Type}

theorem col_eq {a : ℕ} (h : (⟨1, ![a]⟩ : Shape).BroadcastsInDim ⟨2, ![a, 1]⟩ ![0])
    (x : (⟨1, ![a]⟩ : Shape).Idx → α) :
    broadcastInDim ⟨2, ![a, 1]⟩ ![0] h x = fun i => x (ix1 (i 0)) := by
  funext i
  rw [eq_ix2 i]
  exact column_apply h x (i 0) (i 1)

theorem scalar_eq {T : Shape} (h : (⟨0, ![]⟩ : Shape).BroadcastsInDim T ![])
    (x : (⟨0, ![]⟩ : Shape).Idx → α) : broadcastInDim T ![] h x = fun _ => x ix0 := by
  funext j
  unfold broadcastInDim; exact congrArg x (funext fun a => a.elim0)

theorem rowOf_apply {M : ℕ} (k : ℕ) (hk : k < 2) (x : (⟨2, ![2, M]⟩ : Shape).Idx → α)
    (hs : (⟨2, ![2, M]⟩ : Shape).Slices ![k, 0] ⟨2, ![1, M]⟩)
    (hc : (⟨2, ![1, M]⟩ : Shape).ShapeCasts ⟨1, ![M]⟩) (e : Fin M) :
    shapeCast ⟨1, ![M]⟩ (extractStridedSlice ⟨2, ![1, M]⟩ ![k, 0] x hs) hc (ix1 e) = x (ix2 ⟨k, hk⟩ e) := by
  rw [shapeCast_1a_a_apply, slice2_axis0_eq]
  rfl

end Layout

theorem count_apply {N M : ℕ} (wf : ScatterDims.WF ⟨1, ![N]⟩ ⟨2, ![M, 1]⟩ ⟨1, ![M]⟩ [] [0] [0] 1)
    (hz : (⟨0, ![]⟩ : Shape).BroadcastsInDim ⟨1, ![N]⟩ ![]) (ho : (⟨0, ![]⟩ : Shape).BroadcastsInDim ⟨1, ![M]⟩ ![])
    (hc : (⟨1, ![M]⟩ : Shape).BroadcastsInDim ⟨2, ![M, 1]⟩ ![0])
    (d : (⟨1, ![M]⟩ : Shape).Idx → BitVec 32) (i : Fin N) :
    Host.scatterAdd (F := Ideal) (φ := .f32) (vecScatterDims N M wf)
      (broadcastInDim ⟨1, ![N]⟩ ![] hz (constant (F := Ideal) ⟨0, ![]⟩ .f32 0x00000000#32))
      (broadcastInDim ⟨2, ![M, 1]⟩ ![0] hc d)
      (broadcastInDim ⟨1, ![M]⟩ ![] ho (constant (F := Ideal) ⟨0, ![]⟩ .f32 0x3F800000#32)) (ix1 i)
    = Cert.Spec.Z + ∑ _e ∈ Finset.univ.filter (fun e : Fin M => (d (ix1 e)).toInt = (i.val : Int)), Cert.Spec.O := by
  rw [vecScatterAdd_apply, scalar_eq hz, scalar_eq ho, col_eq hc d]
  rfl

theorem agg_apply {N C M : ℕ} (hN : 0 < N)
    (wfs : ScatterDims.WF ⟨2, ![N, C]⟩ ⟨2, ![M, 1]⟩ ⟨2, ![M, C]⟩ [1] [0] [0] 1)
    (wfg : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ ![]) (hb : (⟨0, ![]⟩ : Shape).BroadcastsInDim ⟨1, ![M]⟩ ![])
    (hc : (⟨1, ![M]⟩ : Shape).BroadcastsInDim ⟨2, ![M, 1]⟩ ![0])
    (s d : (⟨1, ![M]⟩ : Shape).Idx → BitVec 32) (y : (⟨2, ![N, C]⟩ : Shape).Idx → EReal) (ext : BitVec 32)
    (n : Fin N) (j : Fin C) :
    Host.scatterAdd (F := Ideal) (φ := .f32) (rowScatterDims N C M wfs)
      (broadcastInDim ⟨2, ![N, C]⟩ ![] hz (constant (F := Ideal) ⟨0, ![]⟩ .f32 0x00000000#32))
      (broadcastInDim ⟨2, ![M, 1]⟩ ![0] hc d)
      (Host.gather (rowGatherDims N C M wfg) y (broadcastInDim ⟨2, ![M, 1]⟩ ![0] hc
        (select (cmpi .slt s (broadcastInDim ⟨1, ![M]⟩ ![] hb (constantI ⟨0, ![]⟩ 32 0#32)))
          (addi s (broadcastInDim ⟨1, ![M]⟩ ![] hb (constantI ⟨0, ![]⟩ 32 ext))) s))) (ix2 n j)
    = Cert.Spec.Z + ∑ e ∈ Finset.univ.filter (fun e : Fin M => (d (ix1 e)).toInt = (n.val : Int)),
        y (ix2 ⟨min (Scalar.select (IntOp.cmpi .slt (s (ix1 e)) 0#32) (IntOp.addi (s (ix1 e)) ext) (s (ix1 e))).toInt.toNat (N - 1),
          by omega⟩ j) := by
  rw [rowScatterAdd_apply, scalar_eq hz, col_eq hc d]
  show Cert.Spec.Z + _ = _
  refine congrArg _ (Finset.sum_congr rfl fun e _ => ?_)
  rw [rowGather_apply hN, col_eq hc, scalar_eq hb, scalar_eq hb]
  rfl

theorem degRec : scatter_S50000_S1250000x1_S1250000_n_0_0_1
    = vecScatterDims 50000 1250000 scatter_S50000_S1250000x1_S1250000_n_0_0_1_wf := rfl
theorem cntRec : scatter_S64_S50000x1_S50000_n_0_0_1
    = vecScatterDims 64 50000 scatter_S64_S50000x1_S50000_n_0_0_1_wf := rfl
theorem aggRec : scatter_S50000x64_S1250000x1_S1250000x64_1_0_0_1
    = rowScatterDims 50000 64 1250000 scatter_S50000x64_S1250000x1_S1250000x64_1_0_0_1_wf := rfl
theorem takeRec : gather_S50000x64_S1250000x1_S1250000x64_1_0_n_n_0_1_164
    = rowGatherDims 50000 64 1250000 gather_S50000x64_S1250000x1_S1250000x64_1_0_n_n_0_1_164_wf := rfl

abbrev srcVec (x1 : S2x1250000.Idx → BitVec 32) : S1250000.Idx → BitVec 32 :=
  shapeCast S1250000 (extractStridedSlice S1x1250000 ![0, 0] x1 slices_S2x1250000_S1x1250000_0_0) shapeCasts_S1x1250000_S1250000
abbrev dstVec (x1 : S2x1250000.Idx → BitVec 32) : S1250000.Idx → BitVec 32 :=
  shapeCast S1250000 (extractStridedSlice S1x1250000 ![1, 0] x1 slices_S2x1250000_S1x1250000_1_0) shapeCasts_S1x1250000_S1250000

theorem srcVec_eq (x1 : S2x1250000.Idx → BitVec 32) : srcVec x1 = fun i => x1 (ix2 0 (i 0)) := by
  funext i
  rw [eq_ix1 i]
  exact rowOf_apply 0 (by decide) x1 _ _ (i 0)
theorem dstVec_eq (x1 : S2x1250000.Idx → BitVec 32) : dstVec x1 = fun i => x1 (ix2 1 (i 0)) := by
  funext i
  rw [eq_ix1 i]
  exact rowOf_apply 1 (by decide) x1 _ _ (i 0)

theorem V1_src (c : Dev nD) : (V1 m c main_v1 : S1250000.Idx → BitVec 32) = srcVec (m ((c : Thread nD τ).loc main_arg1)) := by
  show StableHlo.after hostOps0 (V0 m c) (Proc.devRef .tc main_v1) = _
  after_results
  rfl
theorem V1_dst (c : Dev nD) : (V1 m c main_v3 : S1250000.Idx → BitVec 32) = dstVec (m ((c : Thread nD τ).loc main_arg1)) := by
  show StableHlo.after hostOps0 (V0 m c) (Proc.devRef .tc main_v3) = _
  after_results
  rfl

theorem V1_dinv (c : Dev nD) (n : Fin 50000) : V1 m c main_v11 (ix2 n 0)
    = Cert.Spec.dinv (fun e => m ((c : Thread nD τ).loc main_arg1) (ix2 1 e)) n := by
  have e1 : (V1 m c main_v11 : S50000x1.Idx → EReal) = broadcastInDim S50000x1 ![0] bcast_S50000_S50000x1_0
      (Host.rsqrt (addf (Host.scatterAdd (F := Ideal) (φ := .f32) scatter_S50000_S1250000x1_S1250000_n_0_0_1
          (broadcastInDim S50000 ![] bcast_S_S50000 (constant (F := Ideal) S_ .f32 0x00000000#32))
          (broadcastInDim S1250000x1 ![0] bcast_S1250000_S1250000x1_0 (dstVec (m ((c : Thread nD τ).loc main_arg1))))
          (broadcastInDim S1250000 ![] bcast_S_S1250000 (constant (F := Ideal) S_ .f32 0x3F800000#32)))
        (broadcastInDim S50000 ![] bcast_S_S50000 (constant (F := Ideal) S_ .f32 0x3F800000#32)))) := by
    show StableHlo.after hostOps0 (V0 m c) (Proc.devRef .tc main_v11) = _
    after_results
    rfl
  rw [e1, column_apply, hostRsqrt_apply, addf_apply, degRec, count_apply, scalar_eq bcast_S_S50000, dstVec_eq]
  rfl

theorem V1_counts (c : Dev nD) (g : Fin 64) : V1 m c main_v16 (ix2 g 0)
    = Cert.Spec.counts (fun n => m ((c : Thread nD τ).loc main_arg2) (ix1 n)) g := by
  have e1 : (V1 m c main_v16 : S64x1.Idx → EReal) = broadcastInDim S64x1 ![0] bcast_S64_S64x1_0
      (Host.scatterAdd (F := Ideal) (φ := .f32) scatter_S64_S50000x1_S50000_n_0_0_1
          (broadcastInDim S64 ![] bcast_S_S64 (constant (F := Ideal) S_ .f32 0x00000000#32))
          (broadcastInDim S50000x1 ![0] bcast_S50000_S50000x1_0 (m ((c : Thread nD τ).loc main_arg2)))
          (broadcastInDim S50000 ![] bcast_S_S50000 (constant (F := Ideal) S_ .f32 0x3F800000#32))) := by
    show StableHlo.after hostOps0 (V0 m c) (Proc.devRef .tc main_v16) = _
    after_results
  rw [e1, column_apply, cntRec, count_apply]
  rfl

theorem aggTerm_apply (x1 : S2x1250000.Idx → BitVec 32) (y : S50000x64.Idx → EReal) (n : Fin 50000) (j : Fin 64) :
    Host.scatterAdd (F := Ideal) (φ := .f32) scatter_S50000x64_S1250000x1_S1250000x64_1_0_0_1
      (broadcastInDim S50000x64 ![] bcast_S_S50000x64 (constant (F := Ideal) S_ .f32 0x00000000#32))
      (broadcastInDim S1250000x1 ![0] bcast_S1250000_S1250000x1_0 (dstVec x1))
      (Host.gather gather_S50000x64_S1250000x1_S1250000x64_1_0_n_n_0_1_164 y
        (broadcastInDim S1250000x1 ![0] bcast_S1250000_S1250000x1_0
          (select (cmpi .slt (srcVec x1) (broadcastInDim S1250000 ![] bcast_S_S1250000 (constantI S_ 32 0#32)))
            (addi (srcVec x1) (broadcastInDim S1250000 ![] bcast_S_S1250000 (constantI S_ 32 50000#32))) (srcVec x1))))
      (ix2 n j)
    = Cert.Spec.Z + ∑ e ∈ Cert.Spec.into (fun e => x1 (ix2 1 e)) n,
        y (ix2 (Cert.Spec.node (Cert.Spec.wrap (x1 (ix2 0 e)))) j) := by
  rw [aggRec, takeRec, agg_apply (by decide), srcVec_eq, dstVec_eq]
  rfl

abbrev aggTerm (s d : S1250000.Idx → BitVec 32) (y : S50000x64.Idx → EReal) : S50000x64.Idx → EReal :=
  Host.scatterAdd (F := Ideal) (φ := .f32) scatter_S50000x64_S1250000x1_S1250000x64_1_0_0_1
    (broadcastInDim S50000x64 ![] bcast_S_S50000x64 (constant (F := Ideal) S_ .f32 0x00000000#32))
    (broadcastInDim S1250000x1 ![0] bcast_S1250000_S1250000x1_0 d)
    (Host.gather gather_S50000x64_S1250000x1_S1250000x64_1_0_n_n_0_1_164 y
      (broadcastInDim S1250000x1 ![0] bcast_S1250000_S1250000x1_0
        (select (cmpi .slt s (broadcastInDim S1250000 ![] bcast_S_S1250000 (constantI S_ 32 0#32)))
          (addi s (broadcastInDim S1250000 ![] bcast_S_S1250000 (constantI S_ 32 50000#32))) s)))

section Stretches
variable (W : Valuation τ sig (Elt Ideal))

theorem agg1_term : (StableHlo.after hostOps1 W (Proc.devRef .tc main_v27) : S50000x64.Idx → EReal)
    = aggTerm (W (Proc.devRef .tc main_v1)) (W (Proc.devRef .tc main_v3)) (W (Proc.devRef .tc main_v17_1)) := by
  after_results_simp
  all_goals rfl
theorem bias1_term : (StableHlo.after hostOps1 W (Proc.devRef .tc main_v28) : S1x64.Idx → EReal)
    = broadcastInDim S1x64 ![1] bcast_S64_S1x64_1 (W (Proc.devRef .tc main_arg4)) := by
  after_results
  all_goals rfl

end Stretches

theorem V2_src (c : Dev nD) : V2 m outs c main_v1 = V1 m c main_v1 := V2_of m outs c main_v1 (by decide)
theorem V2_dst (c : Dev nD) : V2 m outs c main_v3 = V1 m c main_v3 := V2_of m outs c main_v3 (by decide)
theorem V2_y (c : Dev nD) : V2 m outs c main_v17_1 = outs 2 main_v17_1 c := by
  simp only [V2, Function.update_self]

theorem V3_agg (c : Dev nD) (n : Fin 50000) (j : Fin 64) : V3 m outs c main_v27 (ix2 n j)
    = Cert.Spec.Z + Finset.sum (M := EReal) (Cert.Spec.into (fun e => m ((c : Thread nD τ).loc main_arg1) (ix2 1 e)) n) fun e =>
        outs 2 main_v17_1 c (ix2 (Cert.Spec.node (Cert.Spec.wrap (m ((c : Thread nD τ).loc main_arg1) (ix2 0 e)))) j) := by
  refine (congrFun (agg1_term (V2 m outs c)) (ix2 n j)).trans ?_
  rw [show (V2 m outs c (Proc.devRef .tc main_v1) : S1250000.Idx → BitVec 32) = _ from (V2_src m outs c).trans (V1_src m c),
    show (V2 m outs c (Proc.devRef .tc main_v3) : S1250000.Idx → BitVec 32) = _ from (V2_dst m outs c).trans (V1_dst m c),
    show (V2 m outs c (Proc.devRef .tc main_v17_1) : S50000x64.Idx → EReal) = _ from V2_y m outs c]
  exact aggTerm_apply _ _ n j

theorem V3_bias (c : Dev nD) (j : Fin 64) : V3 m outs c main_v28 (ix2 0 j)
    = m ((c : Thread nD τ).loc main_arg4) (ix1 j) := by
  refine (congrFun (bias1_term (V2 m outs c)) (ix2 0 j)).trans ?_
  rw [row_apply, show (V2 m outs c (Proc.devRef .tc main_arg4) : S64.Idx → EReal) = _ from
    (V2_of m outs c main_arg4 (by decide)).trans (V1_of m c main_arg4 (by decide))]

section Stretches
variable (W : Valuation τ sig (Elt Ideal))

theorem agg3_term : (StableHlo.after hostOps3 W (Proc.devRef .tc main_v40) : S50000x64.Idx → EReal)
    = aggTerm (W (Proc.devRef .tc main_v1)) (W (Proc.devRef .tc main_v3)) (W (Proc.devRef .tc main_v30_1)) := by
  after_results_simp
  all_goals rfl
theorem bias3_term : (StableHlo.after hostOps3 W (Proc.devRef .tc main_v41) : S1x64.Idx → EReal)
    = broadcastInDim S1x64 ![1] bcast_S64_S1x64_1 (W (Proc.devRef .tc main_arg6)) := by
  after_results
  all_goals rfl
theorem agg5_term : (StableHlo.after hostOps5 W (Proc.devRef .tc main_v53) : S50000x64.Idx → EReal)
    = aggTerm (W (Proc.devRef .tc main_v1)) (W (Proc.devRef .tc main_v3)) (W (Proc.devRef .tc main_v43_1)) := by
  after_results_simp
  all_goals rfl
theorem bias5_term : (StableHlo.after hostOps5 W (Proc.devRef .tc main_v54) : S1x64.Idx → EReal)
    = broadcastInDim S1x64 ![1] bcast_S64_S1x64_1 (W (Proc.devRef .tc main_arg8)) := by
  after_results
  all_goals rfl
theorem batch_term : (StableHlo.after hostOps6 W (Proc.devRef .tc main_v56) : S50000x1.Idx → BitVec 32)
    = broadcastInDim S50000x1 ![0] bcast_S50000_S50000x1_0 (W (Proc.devRef .tc main_arg2)) := by
  after_results
  all_goals rfl
theorem bp_term : (StableHlo.after hostOps6 W (Proc.devRef .tc main_v57) : S1x1.Idx → EReal)
    = broadcastInDim S1x1 ![1] bcast_S1_S1x1_1 (W (Proc.devRef .tc main_arg10)) := by
  after_results
  all_goals rfl
theorem out_term : (StableHlo.after hostOps7 W (Proc.devRef .tc main_v59) : S64.Idx → EReal)
    = shapeCast S64 (W (Proc.devRef .tc main_v58)) shapeCasts_S64x1_S64 := by
  after_results
  all_goals rfl

end Stretches

theorem V5_src (c : Dev nD) : V5 m outs c main_v1 = V1 m c main_v1 :=
  (V5_of m outs c main_v1 (by decide)).trans <| (V4_of m outs c main_v1 (by decide)).trans <|
    (V3_of m outs c main_v1 (by decide)).trans <| V2_of m outs c main_v1 (by decide)
theorem V5_dst (c : Dev nD) : V5 m outs c main_v3 = V1 m c main_v3 :=
  (V5_of m outs c main_v3 (by decide)).trans <| (V4_of m outs c main_v3 (by decide)).trans <|
    (V3_of m outs c main_v3 (by decide)).trans <| V2_of m outs c main_v3 (by decide)
theorem V5_y (c : Dev nD) : V5 m outs c main_v30_1 = outs 5 main_v30_1 c := by
  simp only [V5, Function.update_self]

theorem V6_agg (c : Dev nD) (n : Fin 50000) (j : Fin 64) : V6 m outs c main_v40 (ix2 n j)
    = Cert.Spec.Z + Finset.sum (M := EReal) (Cert.Spec.into (fun e => m ((c : Thread nD τ).loc main_arg1) (ix2 1 e)) n) fun e =>
        outs 5 main_v30_1 c (ix2 (Cert.Spec.node (Cert.Spec.wrap (m ((c : Thread nD τ).loc main_arg1) (ix2 0 e)))) j) := by
  refine (congrFun (agg3_term (V5 m outs c)) (ix2 n j)).trans ?_
  rw [show (V5 m outs c (Proc.devRef .tc main_v1) : S1250000.Idx → BitVec 32) = _ from (V5_src m outs c).trans (V1_src m c),
    show (V5 m outs c (Proc.devRef .tc main_v3) : S1250000.Idx → BitVec 32) = _ from (V5_dst m outs c).trans (V1_dst m c),
    show (V5 m outs c (Proc.devRef .tc main_v30_1) : S50000x64.Idx → EReal) = _ from V5_y m outs c]
  exact aggTerm_apply _ _ n j

theorem V6_bias (c : Dev nD) (j : Fin 64) : V6 m outs c main_v41 (ix2 0 j)
    = m ((c : Thread nD τ).loc main_arg6) (ix1 j) := by
  refine (congrFun (bias3_term (V5 m outs c)) (ix2 0 j)).trans ?_
  rw [row_apply, show (V5 m outs c (Proc.devRef .tc main_arg6) : S64.Idx → EReal) = _ from
    (V5_of m outs c main_arg6 (by decide)).trans <| (V4_of m outs c main_arg6 (by decide)).trans <|
      (V3_of m outs c main_arg6 (by decide)).trans <| (V2_of m outs c main_arg6 (by decide)).trans <|
        V1_of m c main_arg6 (by decide)]

theorem V8_src (c : Dev nD) : V8 m outs c main_v1 = V1 m c main_v1 :=
  (V8_of m outs c main_v1 (by decide)).trans <| (V7_of m outs c main_v1 (by decide)).trans <|
    (V6_of m outs c main_v1 (by decide)).trans <| V5_src m outs c
theorem V8_dst (c : Dev nD) : V8 m outs c main_v3 = V1 m c main_v3 :=
  (V8_of m outs c main_v3 (by decide)).trans <| (V7_of m outs c main_v3 (by decide)).trans <|
    (V6_of m outs c main_v3 (by decide)).trans <| V5_dst m outs c
theorem V8_y (c : Dev nD) : V8 m outs c main_v43_1 = outs 8 main_v43_1 c := by
  simp only [V8, Function.update_self]

theorem V9_agg (c : Dev nD) (n : Fin 50000) (j : Fin 64) : V9 m outs c main_v53 (ix2 n j)
    = Cert.Spec.Z + Finset.sum (M := EReal) (Cert.Spec.into (fun e => m ((c : Thread nD τ).loc main_arg1) (ix2 1 e)) n) fun e =>
        outs 8 main_v43_1 c (ix2 (Cert.Spec.node (Cert.Spec.wrap (m ((c : Thread nD τ).loc main_arg1) (ix2 0 e)))) j) := by
  refine (congrFun (agg5_term (V8 m outs c)) (ix2 n j)).trans ?_
  rw [show (V8 m outs c (Proc.devRef .tc main_v1) : S1250000.Idx → BitVec 32) = _ from (V8_src m outs c).trans (V1_src m c),
    show (V8 m outs c (Proc.devRef .tc main_v3) : S1250000.Idx → BitVec 32) = _ from (V8_dst m outs c).trans (V1_dst m c),
    show (V8 m outs c (Proc.devRef .tc main_v43_1) : S50000x64.Idx → EReal) = _ from V8_y m outs c]
  exact aggTerm_apply _ _ n j

theorem V9_bias (c : Dev nD) (j : Fin 64) : V9 m outs c main_v54 (ix2 0 j)
    = m ((c : Thread nD τ).loc main_arg8) (ix1 j) := by
  refine (congrFun (bias5_term (V8 m outs c)) (ix2 0 j)).trans ?_
  rw [row_apply, show (V8 m outs c (Proc.devRef .tc main_arg8) : S64.Idx → EReal) = _ from
    (V8_of m outs c main_arg8 (by decide)).trans <| (V7_of m outs c main_arg8 (by decide)).trans <|
      (V6_of m outs c main_arg8 (by decide)).trans <| (V5_of m outs c main_arg8 (by decide)).trans <|
        (V4_of m outs c main_arg8 (by decide)).trans <| (V3_of m outs c main_arg8 (by decide)).trans <|
          (V2_of m outs c main_arg8 (by decide)).trans <| V1_of m c main_arg8 (by decide)]

theorem V10_arg2 (c : Dev nD) : V10 m outs c main_arg2 = m ((c : Thread nD τ).loc main_arg2) :=
  (V11_of m outs c main_arg2 (by decide)).symm.trans <| (V12_of m outs c main_arg2 (by decide)).symm.trans <|
    (V13_of m outs c main_arg2 (by decide)).symm.trans <| V13_main_arg2 m outs c
theorem V10_arg10 (c : Dev nD) : V10 m outs c main_arg10 = m ((c : Thread nD τ).loc main_arg10) :=
  (V11_of m outs c main_arg10 (by decide)).symm.trans <| (V12_of m outs c main_arg10 (by decide)).symm.trans <|
    (V13_of m outs c main_arg10 (by decide)).symm.trans <| V13_main_arg10 m outs c

theorem V11_batch (c : Dev nD) (n : Fin 50000) : V11 m outs c main_v56 (ix2 n 0)
    = m ((c : Thread nD τ).loc main_arg2) (ix1 n) := by
  refine (congrFun (batch_term (V10 m outs c)) (ix2 n 0)).trans ?_
  rw [column_apply, show (V10 m outs c (Proc.devRef .tc main_arg2) : S50000.Idx → BitVec 32) = _ from V10_arg2 m outs c]

theorem V11_bp (c : Dev nD) : V11 m outs c main_v57 (ix2 0 0)
    = m ((c : Thread nD τ).loc main_arg10) (ix1 0) := by
  refine (congrFun (bp_term (V10 m outs c)) (ix2 0 0)).trans ?_
  rw [row_apply, show (V10 m outs c (Proc.devRef .tc main_arg10) : S1.Idx → EReal) = _ from V10_arg10 m outs c]

theorem V13_out (c : Dev nD) (g : Fin 64) : V13 m outs c main_v59 (ix1 g) = outs 12 main_v58 c (ix2 g 0) := by
  refine (congrFun (out_term (V12 m outs c)) (ix1 g)).trans ?_
  rw [shapeCast_a1_a_apply]
  simp only [V12, Function.update_self]

theorem V3_dinvcol (c : Dev nD) : V3 m outs c main_v11 = V1 m c main_v11 :=
  (V3_of m outs c main_v11 (by decide)).trans (V2_of m outs c main_v11 (by decide))
theorem V4_dinvcol (c : Dev nD) : V4 m outs c main_v11 = V1 m c main_v11 :=
  (V4_of m outs c main_v11 (by decide)).trans (V3_dinvcol m outs c)
theorem V6_dinvcol (c : Dev nD) : V6 m outs c main_v11 = V1 m c main_v11 :=
  (V6_of m outs c main_v11 (by decide)).trans <| (V5_of m outs c main_v11 (by decide)).trans (V4_dinvcol m outs c)
theorem V7_dinvcol (c : Dev nD) : V7 m outs c main_v11 = V1 m c main_v11 :=
  (V7_of m outs c main_v11 (by decide)).trans (V6_dinvcol m outs c)
theorem V9_dinvcol (c : Dev nD) : V9 m outs c main_v11 = V1 m c main_v11 :=
  (V9_of m outs c main_v11 (by decide)).trans <| (V8_of m outs c main_v11 (by decide)).trans (V7_dinvcol m outs c)

theorem V3_prod (c : Dev nD) : V3 m outs c main_v17_0 = outs 2 main_v17_0 c := by
  refine (V3_of m outs c main_v17_0 (by decide)).trans ?_
  simp only [V2, Function.update_of_ne (StableHlo.devRef_ne_of_ne (by decide) :
    (Proc.devRef .tc main_v17_0 : DevRef τ sig) ≠ Proc.devRef .tc main_v17_1), Function.update_self]
theorem V4_prod (c : Dev nD) : V4 m outs c main_v29 = outs 4 main_v29 c := by
  simp only [V4, Function.update_self]
theorem V6_prod (c : Dev nD) : V6 m outs c main_v30_0 = outs 5 main_v30_0 c := by
  refine (V6_of m outs c main_v30_0 (by decide)).trans ?_
  simp only [V5, Function.update_of_ne (StableHlo.devRef_ne_of_ne (by decide) :
    (Proc.devRef .tc main_v30_0 : DevRef τ sig) ≠ Proc.devRef .tc main_v30_1), Function.update_self]
theorem V7_prod (c : Dev nD) : V7 m outs c main_v42 = outs 7 main_v42 c := by
  simp only [V7, Function.update_self]
theorem V9_prod (c : Dev nD) : V9 m outs c main_v43_0 = outs 8 main_v43_0 c := by
  refine (V9_of m outs c main_v43_0 (by decide)).trans ?_
  simp only [V8, Function.update_of_ne (StableHlo.devRef_ne_of_ne (by decide) :
    (Proc.devRef .tc main_v43_0 : DevRef τ sig) ≠ Proc.devRef .tc main_v43_1), Function.update_self]
theorem V11_prod (c : Dev nD) : V11 m outs c main_v55 = outs 10 main_v55 c := by
  refine (V11_of m outs c main_v55 (by decide)).trans ?_
  simp only [V10, Function.update_self]

theorem V11_countscol (c : Dev nD) : V11 m outs c main_v16 = V1 m c main_v16 :=
  (V11_of m outs c main_v16 (by decide)).trans <| (V10_of m outs c main_v16 (by decide)).trans <|
    (V9_of m outs c main_v16 (by decide)).trans <| (V8_of m outs c main_v16 (by decide)).trans <|
      (V7_of m outs c main_v16 (by decide)).trans <| (V6_of m outs c main_v16 (by decide)).trans <|
        (V5_of m outs c main_v16 (by decide)).trans <| (V4_of m outs c main_v16 (by decide)).trans <|
          (V3_of m outs c main_v16 (by decide)).trans <| V2_of m outs c main_v16 (by decide)

theorem V1_arg0 (c : Dev nD) : V1 m c main_arg0 = m ((c : Thread nD τ).loc main_arg0) := V1_of m c main_arg0 (by decide)
theorem V1_arg3 (c : Dev nD) : V1 m c main_arg3 = m ((c : Thread nD τ).loc main_arg3) := V1_of m c main_arg3 (by decide)
theorem V4_arg5 (c : Dev nD) : V4 m outs c main_arg5 = m ((c : Thread nD τ).loc main_arg5) :=
  (V4_of m outs c main_arg5 (by decide)).trans <| (V3_of m outs c main_arg5 (by decide)).trans <|
    (V2_of m outs c main_arg5 (by decide)).trans <| V1_of m c main_arg5 (by decide)
theorem V7_arg7 (c : Dev nD) : V7 m outs c main_arg7 = m ((c : Thread nD τ).loc main_arg7) :=
  (V7_of m outs c main_arg7 (by decide)).trans <| (V6_of m outs c main_arg7 (by decide)).trans <|
    (V5_of m outs c main_arg7 (by decide)).trans <| (V4_of m outs c main_arg7 (by decide)).trans <|
      (V3_of m outs c main_arg7 (by decide)).trans <| (V2_of m outs c main_arg7 (by decide)).trans <|
        V1_of m c main_arg7 (by decide)
theorem V11_arg9 (c : Dev nD) : V11 m outs c main_arg9 = m ((c : Thread nD τ).loc main_arg9) :=
  (V12_of m outs c main_arg9 (by decide)).symm.trans <| (V13_of m outs c main_arg9 (by decide)).symm.trans <|
    V13_main_arg9 m outs c

end Cert.KernelIdeal.Val

end
-- ==== Proof.KI.Pool6Value.lean ====
/- The pooling call's accumulation in the body's own arithmetic: after the first block the sums are the block's
   one-hot product added to zero, after each later block that block's product added to the sums before it, and the
   result after the last block is the head applied to the sums divided by the sizes. -/
import proofs.«415099_j43559558316604_1_alg».proof.Proof.KI.Pool6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

theorem zeroOffsets6 : (![0, 0] : Fin 2 → ℕ) = fun _ => 0 := by funext a; fin_cases a <;> rfl

section Body

variable (c : Dev nD) (i : grid6.Coords) (arg1 : Memref sig .tc .vmem S5000x64 .f32) (harg1 : arg1.IsWhole) (arg2 : Memref sig .tc .vmem S5000x1 .i32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x64 .f32) (harg7 : arg7.IsWhole)

theorem sums6_first_eq (hfst : isFirst6 i) (hlst : ¬isLast6 i)
    (xh : Vec F S5000x64 .f32) (xb : Vec F S5000x1 .i32) (xn : Vec F S64x1 .f32) (xw : Vec F S64x1 .f32) (xc : Vec F S1x1 .f32) :
    sums6_first c i arg1 harg1 arg2 harg2 arg3 harg3 arg4 harg4 arg5 harg5 arg6 harg6 arg7 harg7 hfst hlst xh xb xn xw xc = k6_pay2 xb xh (k6_pay1 (F := F)) := by
  unfold sums6_first
  rw [View.read_writes_eq_canon _ _ _ (sumsCover6_first c i arg1 harg1 arg2 harg2 arg3 harg3 arg4 harg4 arg5 harg5 arg6 harg6 arg7 harg7 hfst hlst xh xb xn xw xc)]
  unfold bodyRun6_first; dsimp only; sl_unfold_words
  rw [View.canon_cons_unit_zero (S := S64x64) zeroOffsets6]
  simp only [View.readAt_eq_ld, harg1.read_unread, harg2.read_unread, harg3.read_unread, harg4.read_unread, harg5.read_unread, harg7.read_unread,
    View.ld_unit_zero (S := S5000x64) zeroOffsets6, View.ld_unit_zero (S := S5000x1) zeroOffsets6, View.ld_unit_zero (S := S64x64) zeroOffsets6,
    View.ld_unit_zero (S := S64x1) zeroOffsets6, View.ld_unit_zero (S := S1x1) zeroOffsets6, View.readCov_unit_zero (S := S64x64) _ zeroOffsets6]

theorem sums6_mid_eq (hfst : ¬isFirst6 i) (hlst : ¬isLast6 i)
    (xh : Vec F S5000x64 .f32) (xb : Vec F S5000x1 .i32) (xn : Vec F S64x1 .f32) (xw : Vec F S64x1 .f32) (xc : Vec F S1x1 .f32) (xs : Vec F S64x64 .f32) :
    sums6_mid c i arg1 harg1 arg2 harg2 arg3 harg3 arg4 harg4 arg5 harg5 arg6 harg6 arg7 harg7 hfst hlst xh xb xn xw xc xs = k6_pay2 xb xh xs := by
  unfold sums6_mid
  rw [View.read_writes_eq_canon _ _ _ (sumsCover6_mid c i arg1 harg1 arg2 harg2 arg3 harg3 arg4 harg4 arg5 harg5 arg6 harg6 arg7 harg7 hfst hlst xh xb xn xw xc xs)]
  unfold bodyRun6_mid; dsimp only; sl_unfold_words
  rw [View.canon_unit_zero (S := S64x64) zeroOffsets6]
  simp only [View.readAt_eq_ld, harg1.read_unread, harg2.read_unread, harg3.read_unread, harg4.read_unread, harg5.read_unread, harg7.read_unread,
    View.ld_unit_zero (S := S5000x64) zeroOffsets6, View.ld_unit_zero (S := S5000x1) zeroOffsets6, View.ld_unit_zero (S := S64x64) zeroOffsets6,
    View.ld_unit_zero (S := S64x1) zeroOffsets6, View.ld_unit_zero (S := S1x1) zeroOffsets6, View.readCov_unit_zero (S := S64x64) _ zeroOffsets6]

theorem sums6_last_eq (hfst : ¬isFirst6 i) (hlst : isLast6 i)
    (xh : Vec F S5000x64 .f32) (xb : Vec F S5000x1 .i32) (xn : Vec F S64x1 .f32) (xw : Vec F S64x1 .f32) (xc : Vec F S1x1 .f32) (xs : Vec F S64x64 .f32) :
    sums6_last c i arg1 harg1 arg2 harg2 arg3 harg3 arg4 harg4 arg5 harg5 arg6 harg6 arg7 harg7 hfst hlst xh xb xn xw xc xs = k6_pay2 xb xh xs := by
  unfold sums6_last
  rw [View.read_writes_eq_canon _ _ _ (sumsCover6_last c i arg1 harg1 arg2 harg2 arg3 harg3 arg4 harg4 arg5 harg5 arg6 harg6 arg7 harg7 hfst hlst xh xb xn xw xc xs)]
  unfold bodyRun6_last; dsimp only; sl_unfold_words
  rw [View.canon_unit_zero (S := S64x64) zeroOffsets6]
  simp only [View.readAt_eq_ld, harg1.read_unread, harg2.read_unread, harg3.read_unread, harg4.read_unread, harg5.read_unread, harg7.read_unread,
    View.ld_unit_zero (S := S5000x64) zeroOffsets6, View.ld_unit_zero (S := S5000x1) zeroOffsets6, View.ld_unit_zero (S := S64x64) zeroOffsets6,
    View.ld_unit_zero (S := S64x1) zeroOffsets6, View.ld_unit_zero (S := S1x1) zeroOffsets6, View.readCov_unit_zero (S := S64x64) _ zeroOffsets6]

theorem res6_last_eq (hfst : ¬isFirst6 i) (hlst : isLast6 i)
    (xh : Vec F S5000x64 .f32) (xb : Vec F S5000x1 .i32) (xn : Vec F S64x1 .f32) (xw : Vec F S64x1 .f32) (xc : Vec F S1x1 .f32) (xs : Vec F S64x64 .f32) :
    res6_last c i arg1 harg1 arg2 harg2 arg3 harg3 arg4 harg4 arg5 harg5 arg6 harg6 arg7 harg7 hfst hlst xh xb xn xw xc xs = k6_pay3 (k6_pay2 xb xh xs) xn xw xc := by
  unfold res6_last
  rw [View.read_writes_eq_canon _ _ _ (resCover6_last c i arg1 harg1 arg2 harg2 arg3 harg3 arg4 harg4 arg5 harg5 arg6 harg6 arg7 harg7 hfst hlst xh xb xn xw xc xs)]
  unfold bodyRun6_last; dsimp only; sl_unfold_words
  rw [View.canon_unit_zero (S := S64x1) zeroOffsets6]
  simp only [View.readAt_eq_ld, harg1.read_unread, harg2.read_unread, harg3.read_unread, harg4.read_unread, harg5.read_unread, harg7.read_unread,
    View.ld_unit_zero (S := S5000x64) zeroOffsets6, View.ld_unit_zero (S := S5000x1) zeroOffsets6, View.ld_unit_zero (S := S64x64) zeroOffsets6,
    View.ld_unit_zero (S := S64x1) zeroOffsets6, View.ld_unit_zero (S := S1x1) zeroOffsets6, View.readCov_unit_zero (S := S64x64) _ zeroOffsets6]

end Body

theorem scAt6_first (c : Dev nD) (t : Fin cfg6.N) (h0 : t.val = 0) :
    (outsAt6 V c t.val t.isLt).2 = k6_pay2 (iblk6 V c 1 t) (iblk6 V c 0 t) (k6_pay1 (F := F)) := by
  have hN : t.val < 10 := lt_of_lt_of_eq t.isLt (show cfg6.N = 10 from N_6)
  have h9 : ¬t.val = 9 := by omega
  rw [outsAt6_first V c t h0 h9]; dsimp only
  exact sums6_first_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) ((isFirst6_iff t).mpr h0) (fun h => h9 ((isLast6_iff t).mp h)) (iblk6 V c 0 t) (iblk6 V c 1 t) (iblk6 V c 2 t) (iblk6 V c 3 t) (iblk6 V c 4 t)

theorem scAt6_step (c : Dev nD) (t : Fin cfg6.N) (h0 : ¬t.val = 0) :
    (outsAt6 V c t.val t.isLt).2 = k6_pay2 (iblk6 V c 1 t) (iblk6 V c 0 t) (outsAt6 V c (t.val - 1) (Nat.lt_of_le_of_lt (Nat.sub_le _ _) t.isLt)).2 := by
  by_cases h9 : t.val = 9
  · rw [outsAt6_last V c t h0 h9]; dsimp only
    exact sums6_last_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) (fun h => h0 ((isFirst6_iff t).mp h)) ((isLast6_iff t).mpr h9) (iblk6 V c 0 t) (iblk6 V c 1 t) (iblk6 V c 2 t) (iblk6 V c 3 t) (iblk6 V c 4 t) (outsAt6 V c (t.val - 1) (Nat.lt_of_le_of_lt (Nat.sub_le _ _) t.isLt)).2
  · rw [outsAt6_mid V c t h0 h9]; dsimp only
    exact sums6_mid_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) (fun h => h0 ((isFirst6_iff t).mp h)) (fun h => h9 ((isLast6_iff t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2

theorem outAt6_lastPt (c : Dev nD) (t : Fin cfg6.N) (h9 : t.val = 9) :
    (outsAt6 V c t.val t.isLt).1 = k6_pay3 (outsAt6 V c t.val t.isLt).2 (iblk6 V c 2 t) (iblk6 V c 3 t) (iblk6 V c 4 t) := by
  have h0 : ¬t.val = 0 := by omega
  rw [outsAt6_last V c t h0 h9]; dsimp only
  exact (res6_last_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) (fun h => h0 ((isFirst6_iff t).mp h)) ((isLast6_iff t).mpr h9) (iblk6 V c 0 t) (iblk6 V c 1 t) (iblk6 V c 2 t) (iblk6 V c 3 t) (iblk6 V c 4 t) (outsAt6 V c (t.val - 1) (Nat.lt_of_le_of_lt (Nat.sub_le _ _) t.isLt)).2).trans
    (congrArg (fun s => k6_pay3 s (iblk6 V c 2 t) (iblk6 V c 3 t) (iblk6 V c 4 t))
      (sums6_last_eq (F := F) c (grid6.coords t) (ms6_0 t) (hs6_0 t) (ms6_1 t) (hs6_1 t) (ms6_2 t) (hs6_2 t) (ms6_3 t) (hs6_3 t) (ms6_4 t) (hs6_4 t) (ms6_5 t) (hs6_5 t) sumsM6 (Memref.isWhole_whole _) (fun h => h0 ((isFirst6_iff t).mp h)) ((isLast6_iff t).mpr h9) (iblk6 V c 0 t) (iblk6 V c 1 t) (iblk6 V c 2 t) (iblk6 V c 3 t) (iblk6 V c 4 t) (outsAt6 V c (t.val - 1) (Nat.lt_of_le_of_lt (Nat.sub_le _ _) t.isLt)).2).symm)

theorem scAt6_zero (c : Dev nD) (h : 0 < cfg6.N) :
    (outsAt6 V c 0 h).2 = k6_pay2 (iblk6 V c 1 ⟨0, h⟩) (iblk6 V c 0 ⟨0, h⟩) (k6_pay1 (F := F)) :=
  scAt6_first V c ⟨0, h⟩ rfl

theorem scAt6_succ (c : Dev nD) (n : ℕ) (hn : n + 1 < cfg6.N) :
    (outsAt6 V c (n + 1) hn).2
      = k6_pay2 (iblk6 V c 1 ⟨n + 1, hn⟩) (iblk6 V c 0 ⟨n + 1, hn⟩) (outsAt6 V c n (Nat.lt_of_succ_lt hn)).2 :=
  scAt6_step V c ⟨n + 1, hn⟩ (Nat.succ_ne_zero n)

theorem outAt6_last (c : Dev nD) (h : 9 < cfg6.N) :
    (outsAt6 V c 9 h).1 = k6_pay3 (outsAt6 V c 9 h).2 (iblk6 V c 2 ⟨9, h⟩) (iblk6 V c 3 ⟨9, h⟩) (iblk6 V c 4 ⟨9, h⟩) :=
  outAt6_lastPt V c ⟨9, h⟩ rfl

end Region

end Cert.KernelIdeal.Hand

end
-- ==== Proof.KI.ValPool.lean ====
/- The pooling call's result at a graph, over the extended reals: the sums of the members' rows taken block by block,
   divided by the graph's size, times the head's weights, plus its bias. -/
import proofs.«415099_j43559558316604_1_alg».proof.Proof.KI.Pool6Value
import proofs.«415099_j43559558316604_1_alg».proof.Proof.Spec
import proofs.«415099_j43559558316604_1_alg».proof.Proof.LibKeepdimsColumn
import proofs.«415099_j43559558316604_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.ShloMosaic.Pipeline (Dat)

theorem zeros_apply (g j : Fin 64) : (k6_pay1 (F := Ideal)) (ix2 g j) = Cert.Spec.Z := by
  unfold k6_pay1; rw [shapeCast_self]; rfl

theorem onehotIdx_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q

theorem onehotIdx_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl

theorem featIdx_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q

theorem featIdx_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

theorem sums_step_apply (xb : Vec Ideal S5000x1 .i32) (xh : Vec Ideal S5000x64 .f32) (xs : Vec Ideal S64x64 .f32) (g j : Fin 64) :
    k6_pay2 xb xh xs (ix2 g j)
      = (xs (ix2 g j) : EReal) + ∑ p : Fin 5000,
          (FloatOps.sitofp (F := Ideal) .f32 ((IntOp.cmpi .eq (xb (ix2 p (0 : Fin 1))) (BitVec.ofNat 32 g.val)).setWidth 32) : EReal)
            * (xh (ix2 p j) : EReal) := by
  unfold k6_pay2
  simp only [shapeCast_self]
  rw [addf_apply]
  refine congrArg ((xs (ix2 g j) : EReal) + ·) ?_
  show FloatOps.matmul dot_S5000x64_S5000x64_S64x64_0_0_1_1_n_n none _ _ (constant S64x64 .f32 0x00000000#32) (ix2 g j) = _
  rw [Ideal.matmul_constant_zero_apply, ← Equiv.sum_comp (contrEquiv1 dot_S5000x64_S5000x64_S64x64_0_0_1_1_n_n 5000 rfl rfl).symm]
  refine Finset.sum_congr rfl fun p _ => ?_
  have hp := contrEquiv1_symm_val dot_S5000x64_S5000x64_S64x64_0_0_1_1_n_n 5000 rfl rfl p
  have el : dot_S5000x64_S5000x64_S64x64_0_0_1_1_n_n.lhsIdx (ix2 g j) ((contrEquiv1 dot_S5000x64_S5000x64_S64x64_0_0_1_1_n_n 5000 rfl rfl).symm p) = ix2 p g :=
    funext fun a => Fin.ext (by
      match a with
      | ⟨0, _⟩ => exact (onehotIdx_0 _ _).trans hp
      | ⟨1, _⟩ => exact onehotIdx_1 _ _)
  have er : dot_S5000x64_S5000x64_S64x64_0_0_1_1_n_n.rhsIdx (ix2 g j) ((contrEquiv1 dot_S5000x64_S5000x64_S64x64_0_0_1_1_n_n 5000 rfl rfl).symm p) = ix2 p j :=
    funext fun a => Fin.ext (by
      match a with
      | ⟨0, _⟩ => exact (featIdx_0 _ _).trans hp
      | ⟨1, _⟩ => exact featIdx_1 _ _)
  rw [el, er, truncf_apply, truncf_apply, sitofp_apply, extui_apply]
  show FloatOps.sitofp (F := Ideal) .f32 ((IntOp.cmpi .eq (broadcastTo S5000x64 xb broadcasts_S5000x1_S5000x64 (ix2 p g))
      (iota .tc S5000x64 32 [1] iota_S5000x64_d1_w32 (ix2 p g))).setWidth 32) * xh (ix2 p j) = _
  rw [KeepdimsColumn.broadcastTo_a1_ab_apply, iota_single_apply]

theorem head_apply (xs : Vec Ideal S64x64 .f32) (xn xw : Vec Ideal S64x1 .f32) (xc : Vec Ideal S1x1 .f32) (g : Fin 64) :
    k6_pay3 xs xn xw xc (ix2 g (0 : Fin 1))
      = (∑ j : Fin 64, Ideal.div (xs (ix2 g j)) (max (xn (ix2 g (0 : Fin 1))) Cert.Spec.O) * (xw (ix2 j (0 : Fin 1)) : EReal))
          + (xc (ix2 (0 : Fin 1) (0 : Fin 1)) : EReal) := by
  unfold k6_pay3
  simp only [shapeCast_self]
  rw [addf_apply]
  have hb : broadcastTo S64x1 xc broadcasts_S1x1_S64x1 (ix2 g (0 : Fin 1)) = xc (ix2 (0 : Fin 1) (0 : Fin 1)) :=
    ValueIdx.broadcastTo_1b_ab_apply xc broadcasts_S1x1_S64x1 g (0 : Fin 1)
  rw [hb]
  refine congrArg (· + (xc (ix2 (0 : Fin 1) (0 : Fin 1)) : EReal)) ?_
  refine (PlainDot.matmul_zero_apply 64 64 1 none _ _ g (0 : Fin 1)).trans ?_
  refine Finset.sum_congr rfl fun j _ => ?_
  rw [truncf_apply, truncf_apply, divf_apply, KeepdimsColumn.broadcastTo_a1_ab_apply, maximumf_apply]
  rfl

section Region

variable (V : (c : Dev nD) → (b : Ref sig .tc) → Buf (Elt Ideal) ((c : Thread nD τ).loc b))

theorem index6_0 : ∀ t : Fin cfg6.N, win6_0.index t 0 = t.val ∧ win6_0.index t 1 = 0 :=
  (by decide +kernel : ∀ t : Fin grid6.N, win6_0.index t 0 = t.val ∧ win6_0.index t 1 = 0)
theorem index6_1 : ∀ t : Fin cfg6.N, win6_1.index t 0 = t.val ∧ win6_1.index t 1 = 0 :=
  (by decide +kernel : ∀ t : Fin grid6.N, win6_1.index t 0 = t.val ∧ win6_1.index t 1 = 0)

theorem index6_2 : ∀ t : Fin cfg6.N, win6_2.index t 0 = 0 ∧ win6_2.index t 1 = 0 :=
  (by decide +kernel : ∀ t : Fin grid6.N, win6_2.index t 0 = 0 ∧ win6_2.index t 1 = 0)
theorem index6_3 : ∀ t : Fin cfg6.N, win6_3.index t 0 = 0 ∧ win6_3.index t 1 = 0 :=
  (by decide +kernel : ∀ t : Fin grid6.N, win6_3.index t 0 = 0 ∧ win6_3.index t 1 = 0)
theorem index6_4 : ∀ t : Fin cfg6.N, win6_4.index t 0 = 0 ∧ win6_4.index t 1 = 0 :=
  (by decide +kernel : ∀ t : Fin grid6.N, win6_4.index t 0 = 0 ∧ win6_4.index t 1 = 0)

theorem featBlock_apply (c : Dev nD) (t : Fin cfg6.N) (ht : t.val < 10) (p : Fin 5000) (j : Fin 64) :
    (Hand.iblk6 V c 0 t : Vec Ideal S5000x64 .f32) (ix2 p j)
      = (V c main_v55 : S50000x64.Idx → EReal) (ix2 (Cert.Spec.row ⟨t.val, ht⟩ p) j) := by
  have hi := index6_0 t
  unfold Hand.iblk6
  rw [View.read_apply]
  show V c main_v55 _ = V c main_v55 _
  congr 1
  funext a
  apply Fin.ext
  match a with
  | ⟨0, _⟩ => show win6_0.index t 0 * 5000 + 1 * p.val = 5000 * t.val + p.val; rw [hi.1]; omega
  | ⟨1, _⟩ => show win6_0.index t 1 * 64 + 1 * j.val = j.val; rw [hi.2]; omega

theorem wordBlock_apply (c : Dev nD) (t : Fin cfg6.N) (ht : t.val < 10) (p : Fin 5000) :
    (Hand.iblk6 V c 1 t : Vec Ideal S5000x1 .i32) (ix2 p (0 : Fin 1))
      = (V c main_v56 : S50000x1.Idx → BitVec 32) (ix2 (Cert.Spec.row ⟨t.val, ht⟩ p) (0 : Fin 1)) := by
  have hi := index6_1 t
  unfold Hand.iblk6
  rw [View.read_apply]
  show V c main_v56 _ = V c main_v56 _
  congr 1
  funext a
  apply Fin.ext
  match a with
  | ⟨0, _⟩ => show win6_1.index t 0 * 5000 + 1 * p.val = 5000 * t.val + p.val; rw [hi.1]; omega
  | ⟨1, _⟩ => show win6_1.index t 1 * 1 + 1 * 0 = 0; rw [hi.2]

theorem sizeBlock_apply (c : Dev nD) (t : Fin cfg6.N) (g : Fin 64) :
    (Hand.iblk6 V c 2 t : Vec Ideal S64x1 .f32) (ix2 g (0 : Fin 1)) = (V c main_v16 : S64x1.Idx → EReal) (ix2 g (0 : Fin 1)) := by
  have hi := index6_2 t
  unfold Hand.iblk6
  rw [View.read_apply]
  show V c main_v16 _ = V c main_v16 _
  congr 1
  funext a
  apply Fin.ext
  match a with
  | ⟨0, _⟩ => show win6_2.index t 0 * 64 + 1 * g.val = g.val; rw [hi.1]; omega
  | ⟨1, _⟩ => show win6_2.index t 1 * 1 + 1 * 0 = 0; rw [hi.2]

theorem weightBlock_apply (c : Dev nD) (t : Fin cfg6.N) (j : Fin 64) :
    (Hand.iblk6 V c 3 t : Vec Ideal S64x1 .f32) (ix2 j (0 : Fin 1)) = (V c main_arg9 : S64x1.Idx → EReal) (ix2 j (0 : Fin 1)) := by
  have hi := index6_3 t
  unfold Hand.iblk6
  rw [View.read_apply]
  show V c main_arg9 _ = V c main_arg9 _
  congr 1
  funext a
  apply Fin.ext
  match a with
  | ⟨0, _⟩ => show win6_3.index t 0 * 64 + 1 * j.val = j.val; rw [hi.1]; omega
  | ⟨1, _⟩ => show win6_3.index t 1 * 1 + 1 * 0 = 0; rw [hi.2]

theorem biasBlock_apply (c : Dev nD) (t : Fin cfg6.N) :
    (Hand.iblk6 V c 4 t : Vec Ideal S1x1 .f32) (ix2 (0 : Fin 1) (0 : Fin 1)) = (V c main_v57 : S1x1.Idx → EReal) (ix2 (0 : Fin 1) (0 : Fin 1)) := by
  have hi := index6_4 t
  unfold Hand.iblk6
  rw [View.read_apply]
  show V c main_v57 _ = V c main_v57 _
  congr 1
  funext a
  apply Fin.ext
  match a with
  | ⟨0, _⟩ => show win6_4.index t 0 * 1 + 1 * 0 = 0; rw [hi.1]
  | ⟨1, _⟩ => show win6_4.index t 1 * 1 + 1 * 0 = 0; rw [hi.2]

abbrev wordOf (c : Dev nD) : Fin 50000 → BitVec 32 := fun n => (V c main_v56 : S50000x1.Idx → BitVec 32) (ix2 n (0 : Fin 1))
abbrev featOf (c : Dev nD) : Fin 50000 → Fin 64 → EReal := fun n j => (V c main_v55 : S50000x64.Idx → EReal) (ix2 n j)

theorem step_eq_blockSum (c : Dev nD) (t : Fin cfg6.N) (ht : t.val < 10) (xs : Vec Ideal S64x64 .f32) (g j : Fin 64) :
    k6_pay2 (Hand.iblk6 V c 1 t) (Hand.iblk6 V c 0 t) xs (ix2 g j)
      = (xs (ix2 g j) : EReal) + Cert.Spec.blockSum (wordOf V c) (featOf V c) ⟨t.val, ht⟩ g j := by
  refine (sums_step_apply (Hand.iblk6 V c 1 t) (Hand.iblk6 V c 0 t) xs g j).trans ?_
  refine congrArg ((xs (ix2 g j) : EReal) + ·) ?_
  unfold Cert.Spec.blockSum Cert.Spec.onehot
  refine Finset.sum_congr rfl fun p _ => ?_
  rw [wordBlock_apply V c t ht p, featBlock_apply V c t ht p j]

theorem accK_succ (batch : Fin 50000 → BitVec 32) (h : Fin 50000 → Fin 64 → EReal) (k : ℕ) (hk : k < 10) (g j : Fin 64) :
    Cert.Spec.accK batch h (k + 1) g j = Cert.Spec.accK batch h k g j + Cert.Spec.blockSum batch h ⟨k, hk⟩ g j := by
  have e : Cert.Spec.accK batch h (k + 1) g j
      = if hk : k < 10 then Cert.Spec.accK batch h k g j + Cert.Spec.blockSum batch h ⟨k, hk⟩ g j else Cert.Spec.accK batch h k g j := rfl
  rw [e, dif_pos hk]

theorem sums_eq_accK (c : Dev nD) : ∀ (n : ℕ) (hn : n < cfg6.N) (g j : Fin 64),
    ((Hand.outsAt6 V c n hn).2 : Vec Ideal S64x64 .f32) (ix2 g j)
      = Cert.Spec.accK (wordOf V c) (featOf V c) (n + 1) g j
  | 0, hn, g, j => by
    refine (congrFun (Hand.scAt6_zero V c hn) (ix2 g j)).trans ?_
    refine (step_eq_blockSum V c ⟨0, hn⟩ (Nat.zero_lt_succ 9) _ g j).trans ?_
    rw [zeros_apply, accK_succ _ _ 0 (Nat.zero_lt_succ 9)]
    rfl
  | n + 1, hn, g, j => by
    have hk : n + 1 < 10 := lt_of_lt_of_eq hn N_6
    refine (congrFun (Hand.scAt6_succ V c n hn) (ix2 g j)).trans ?_
    refine (step_eq_blockSum V c ⟨n + 1, hn⟩ hk _ g j).trans ?_
    rw [sums_eq_accK c n (Nat.lt_of_succ_lt hn) g j, accK_succ _ _ (n + 1) hk]

theorem nine_lt6 : 9 < cfg6.N := by rw [show cfg6.N = 10 from N_6]; decide

abbrev result6 (c : Dev nD) : Buf (Elt Ideal) ((c : Thread nD τ).loc main_v58) :=
  (Hand.outsAt6 V c 9 nine_lt6).1

theorem flushed6_eq (c : Dev nD) (t : Fin cfg6.N) (hf : (cfg6.win 5).flush t = true) :
    (Hand.dat6 V c).flushed 5 t = ((cfg6.win 5).blk t).view.read (Elt Ideal) (result6 V c) := by
  have hN : cfg6.N = 10 := N_6
  have h9 : t.val = 9 := by have := (flush6_5 t).mp hf; have := t.isLt; omega
  obtain rfl : t = t6_9 := Fin.ext h9
  show (cfg6.win 5).cut (grid6.coords t6_9) ((Hand.dat6 V c).after 5 t6_9) = _
  rw [Hand.after6_5]
  have hz' : (fun a => win6_5.index t6_9 a * main_v58.ty.shape.size a) = fun _ => 0 := funext fun a => by fin_cases a <;> decide
  exact (Memref.read_access_unit_zero (Elt Ideal) main_v58 hz' (fun a => by rw [congrFun hz' a]; simp) (result6 V c)).symm

theorem final6 (c : Dev nD) : (Hand.dat6 V c).arrAt 5 cfg6.N = result6 V c :=
  (Hand.dat6 V c).arrAt_eq_of_cover 5 (result6 V c) (flushed6_eq V c) fun i =>
    ⟨t6_9, (flush6_5 t6_9).mpr rfl, by
      show i ∈ ((View.whole main_v58).slice (win6_5.rect t6_9)).set
      rw [View.set_slice_whole, Rect.mem_set_unit]
      intro a
      have h0 : (i 0 : Nat) < 64 := (i 0).isLt
      have h1 : (i 1 : Nat) < 1 := (i 1).isLt
      match a with
      | ⟨0, _⟩ => show win6_5.index t6_9 0 * win6_5.size 0 ≤ (i 0 : Nat) ∧ (i 0 : Nat) < win6_5.index t6_9 0 * win6_5.size 0 + win6_5.xsize (grid6.coords t6_9) 0
                  rw [show win6_5.index t6_9 0 * win6_5.size 0 = 0 from by decide +kernel, show win6_5.xsize (grid6.coords t6_9) 0 = 64 from by decide +kernel]; omega
      | ⟨1, _⟩ => show win6_5.index t6_9 1 * win6_5.size 1 ≤ (i 1 : Nat) ∧ (i 1 : Nat) < win6_5.index t6_9 1 * win6_5.size 1 + win6_5.xsize (grid6.coords t6_9) 1
                  rw [show win6_5.index t6_9 1 * win6_5.size 1 = 0 from by decide +kernel, show win6_5.xsize (grid6.coords t6_9) 1 = 1 from by decide +kernel]; omega⟩

theorem result6_apply (c : Dev nD)
    (hcounts : ∀ g : Fin 64, (V c main_v16 : S64x1.Idx → EReal) (ix2 g (0 : Fin 1))
      = Cert.Spec.counts (fun n => (V c main_v56 : S50000x1.Idx → BitVec 32) (ix2 n (0 : Fin 1))) g)
    (g : Fin 64) :
    ((Hand.outsAt6 V c 9 nine_lt6).1 : Vec Ideal S64x1 .f32) (ix2 g (0 : Fin 1))
      = Cert.Spec.poolK (fun n => (V c main_v56 : S50000x1.Idx → BitVec 32) (ix2 n (0 : Fin 1)))
          (fun j => (V c main_arg9 : S64x1.Idx → EReal) (ix2 j (0 : Fin 1)))
          ((V c main_v57 : S1x1.Idx → EReal) (ix2 (0 : Fin 1) (0 : Fin 1)))
          (fun n j => (V c main_v55 : S50000x64.Idx → EReal) (ix2 n j))
          g := by
  have e1 := congrFun (Hand.outAt6_last V c nine_lt6) (ix2 g (0 : Fin 1))
  have e2 := head_apply ((Hand.outsAt6 V c 9 nine_lt6).2) (Hand.iblk6 V c 2 ⟨9, nine_lt6⟩) (Hand.iblk6 V c 3 ⟨9, nine_lt6⟩) (Hand.iblk6 V c 4 ⟨9, nine_lt6⟩) g
  have eb := biasBlock_apply V c ⟨9, nine_lt6⟩
  have en := sizeBlock_apply V c ⟨9, nine_lt6⟩ g
  have en' := en.trans (hcounts g)
  refine e1.trans (e2.trans ?_)
  unfold Cert.Spec.poolK
  refine congrArg₂ (· + ·) (Finset.sum_congr rfl fun j _ => ?_) eb
  exact congrArg₂ (· * ·)
    (congrArg₂ Ideal.div (sums_eq_accK V c 9 nine_lt6 g j) (congrArg (max · Cert.Spec.O) en'))
    (weightBlock_apply V c ⟨9, nine_lt6⟩ j)

-- The result at graph g: the accumulated sums over the graph's size, times the head's weights, plus its bias.
theorem pool6_apply (c : Dev nD)
    (hcounts : ∀ g : Fin 64, (V c main_v16 : S64x1.Idx → EReal) (ix2 g (0 : Fin 1))
      = Cert.Spec.counts (fun n => (V c main_v56 : S50000x1.Idx → BitVec 32) (ix2 n (0 : Fin 1))) g)
    (g : Fin 64) :
    (Hand.dat6 (F := Ideal) V c).arrAt 5 cfg6.N (ix2 g (0 : Fin 1))
      = Cert.Spec.poolK (fun n => (V c main_v56 : S50000x1.Idx → BitVec 32) (ix2 n (0 : Fin 1)))
          (fun j => (V c main_arg9 : S64x1.Idx → EReal) (ix2 j (0 : Fin 1)))
          ((V c main_v57 : S1x1.Idx → EReal) (ix2 (0 : Fin 1) (0 : Fin 1)))
          (fun n j => (V c main_v55 : S50000x64.Idx → EReal) (ix2 n j))
          g :=
  (congrFun (final6 V c) (ix2 g (0 : Fin 1))).trans (result6_apply V c hcounts g)

end Region

end Cert.KernelIdeal.Val

end
-- ==== Proof.KI.ValChain.lean ====
/- The kernel program's result as a function of the arguments: three layers, each read through its two calls and the
   host operations around them, then the pooled head. -/
import proofs.«415099_j43559558316604_1_alg».proof.Proof.KI.Chain
import proofs.«415099_j43559558316604_1_alg».proof.Proof.KI.ValStage1_0
import proofs.«415099_j43559558316604_1_alg».proof.Proof.KI.ValStage2_1
import proofs.«415099_j43559558316604_1_alg».proof.Proof.KI.ValStage1_2
import proofs.«415099_j43559558316604_1_alg».proof.Proof.KI.ValStage2_3
import proofs.«415099_j43559558316604_1_alg».proof.Proof.KI.ValStage1_4
import proofs.«415099_j43559558316604_1_alg».proof.Proof.KI.ValStage2_5
import proofs.«415099_j43559558316604_1_alg».proof.Proof.KI.ValHost
import proofs.«415099_j43559558316604_1_alg».proof.Proof.KI.ValPool
import proofs.«415099_j43559558316604_1_alg».proof.Proof.Spec
import Idealize.ShloMosaic.Lib.ValueIdx

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem act_true (v : EReal) : Spec.act true v = max v Spec.Z := by
  unfold Spec.act
  rw [if_pos rfl]

theorem act_false (v : EReal) : Spec.act false v = v := by
  unfold Spec.act
  rw [if_neg Bool.false_ne_true]

theorem layer_of_arrays (src dst : Fin 1250000 → BitVec 32) (relu : Bool) (h : Fin 50000 → Fin 64 → EReal)
    (W : Fin 64 → Fin 64 → EReal) (b : Fin 64 → EReal)
    (P S A R : Fin 50000 → Fin 64 → EReal) (D : Fin 50000 → EReal) (B : Fin 64 → EReal)
    (hP : ∀ n j, P n j = Spec.lin h W n j) (hS : ∀ n j, S n j = Spec.lin h W n j * D n) (hD : ∀ n, D n = Spec.dinv dst n)
    (hA : ∀ n j, A n j = Spec.Z + ∑ e ∈ Spec.into dst n, S (Spec.node (Spec.wrap (src e))) j) (hB : ∀ j, B j = b j)
    (hR : ∀ n j, R n j = Spec.act relu (D n * A n j + P n j * (D n * D n) + B j)) (n : Fin 50000) (j : Fin 64) :
    R n j = Spec.layerK src dst relu h W b n j := by
  unfold Spec.layerK
  rw [hR, hA, hP, hB, hD]
  refine congrArg (fun v => Spec.act relu (Spec.dinv dst n * (Spec.Z + v) + Spec.lin h W n j * (Spec.dinv dst n * Spec.dinv dst n) + b j)) ?_
  refine Finset.sum_congr rfl fun e _ => ?_
  rw [hS, hD]

abbrev argSrc (c : Dev nD) : Fin 1250000 → BitVec 32 := fun e => m ((c : Thread nD τ).loc main_arg1) (ix2 0 e)
abbrev argDst (c : Dev nD) : Fin 1250000 → BitVec 32 := fun e => m ((c : Thread nD τ).loc main_arg1) (ix2 1 e)
abbrev argBatch (c : Dev nD) : Fin 50000 → BitVec 32 := fun n => m ((c : Thread nD τ).loc main_arg2) (ix1 n)
abbrev argX (c : Dev nD) : Fin 50000 → Fin 64 → EReal := fun n k => m ((c : Thread nD τ).loc main_arg0) (ix2 n k)
abbrev argW0 (c : Dev nD) : Fin 64 → Fin 64 → EReal := fun k j => m ((c : Thread nD τ).loc main_arg3) (ix2 k j)
abbrev argW1 (c : Dev nD) : Fin 64 → Fin 64 → EReal := fun k j => m ((c : Thread nD τ).loc main_arg5) (ix2 k j)
abbrev argW2 (c : Dev nD) : Fin 64 → Fin 64 → EReal := fun k j => m ((c : Thread nD τ).loc main_arg7) (ix2 k j)
abbrev argB0 (c : Dev nD) : Fin 64 → EReal := fun j => m ((c : Thread nD τ).loc main_arg4) (ix1 j)
abbrev argB1 (c : Dev nD) : Fin 64 → EReal := fun j => m ((c : Thread nD τ).loc main_arg6) (ix1 j)
abbrev argB2 (c : Dev nD) : Fin 64 → EReal := fun j => m ((c : Thread nD τ).loc main_arg8) (ix1 j)
abbrev argWp (c : Dev nD) : Fin 64 → EReal := fun j => m ((c : Thread nD τ).loc main_arg9) (ix2 j 0)
abbrev argBp (c : Dev nD) : EReal := m ((c : Thread nD τ).loc main_arg10) (ix1 0)

def rows1 (c : Dev nD) : Fin 50000 → Fin 64 → EReal :=
  Spec.layerK (argSrc m c) (argDst m c) true (argX m c) (argW0 m c) (argB0 m c)
def rows2 (c : Dev nD) : Fin 50000 → Fin 64 → EReal :=
  Spec.layerK (argSrc m c) (argDst m c) true (rows1 m c) (argW1 m c) (argB1 m c)
def rows3 (c : Dev nD) : Fin 50000 → Fin 64 → EReal :=
  Spec.layerK (argSrc m c) (argDst m c) false (rows2 m c) (argW2 m c) (argB2 m c)

abbrev dcol (c : Dev nD) : Fin 50000 → EReal := fun n => V1 m c main_v11 (ix2 n 0)
abbrev prodL1 (c : Dev nD) : Fin 50000 → Fin 64 → EReal := fun n j => Hand.outs m 2 main_v17_0 c (ix2 n j)
abbrev scaledL1 (c : Dev nD) : Fin 50000 → Fin 64 → EReal := fun n j => Hand.outs m 2 main_v17_1 c (ix2 n j)
abbrev aggL1 (c : Dev nD) : Fin 50000 → Fin 64 → EReal := fun n j => V3 m (Hand.outs m) c main_v27 (ix2 n j)
abbrev biasL1 (c : Dev nD) : Fin 64 → EReal := fun j => V3 m (Hand.outs m) c main_v28 (ix2 0 j)
abbrev rowsL1 (c : Dev nD) : Fin 50000 → Fin 64 → EReal := fun n j => Hand.outs m 4 main_v29 c (ix2 n j)

theorem outs2_prod (c : Dev nD) : Hand.outs m 2 main_v17_0 c = (Hand.dat0 (Hand.rd (V1 m)) c).arrAt 3 cfg0.N := by
  rw [Hand.outs_2]
  exact Pipeline.withArrays_arr spec0 launch0.win.arr_inj c _ _ 3
theorem outs2_scaled (c : Dev nD) : Hand.outs m 2 main_v17_1 c = (Hand.dat0 (Hand.rd (V1 m)) c).arrAt 4 cfg0.N := by
  rw [Hand.outs_2]
  exact Pipeline.withArrays_arr spec0 launch0.win.arr_inj c _ _ 4

theorem outs4_rows (c : Dev nD) : Hand.outs m 4 main_v29 c = (Hand.dat1 (Hand.rd (V3 m (Hand.o2 m))) c).arrAt 4 cfg1.N := by
  rw [Hand.outs_4]
  exact Pipeline.withArrays_arr spec1 launch1.win.arr_inj c _ _ 4

theorem prod_l1 (c : Dev nD) (n : Fin 50000) (j : Fin 64) :
    prodL1 m c n j = Spec.lin (argX m c) (argW0 m c) n j :=
  (congrFun (outs2_prod m c) (ix2 n j)).trans
    (prod0_apply (Hand.rd (V1 m)) c (m ((c : Thread nD τ).loc main_arg0)) (m ((c : Thread nD τ).loc main_arg3))
      (V1_arg0 m c) (V1_arg3 m c) n j)

theorem scaled_l1 (c : Dev nD) (n : Fin 50000) (j : Fin 64) :
    scaledL1 m c n j = Spec.lin (argX m c) (argW0 m c) n j * dcol m c n :=
  (congrFun (outs2_scaled m c) (ix2 n j)).trans
    (scaled0_apply (Hand.rd (V1 m)) c (m ((c : Thread nD τ).loc main_arg0)) (m ((c : Thread nD τ).loc main_arg3)) (V1 m c main_v11)
      (V1_arg0 m c) (V1_arg3 m c) rfl n j)

theorem comb_l1 (c : Dev nD) (n : Fin 50000) (j : Fin 64) :
    rowsL1 m c n j
      = Spec.act true (dcol m c n * aggL1 m c n j + prodL1 m c n j * (dcol m c n * dcol m c n) + biasL1 m c j) :=
  ((congrFun (outs4_rows m c) (ix2 n j)).trans
    (comb1_apply (Hand.rd (V3 m (Hand.o2 m))) c (V3 m (Hand.outs m) c main_v27) (Hand.outs m 2 main_v17_0 c) (V1 m c main_v11)
      (V3 m (Hand.outs m) c main_v28)
      (congrFun (Hand.V3_outs m c) main_v27).symm
      ((congrFun (Hand.V3_outs m c) main_v17_0).symm.trans (V3_prod m (Hand.outs m) c))
      ((congrFun (Hand.V3_outs m c) main_v11).symm.trans (V3_dinvcol m (Hand.outs m) c))
      (congrFun (Hand.V3_outs m c) main_v28).symm n j)).trans (act_true _).symm

theorem layer1 (c : Dev nD) (n : Fin 50000) (j : Fin 64) : rowsL1 m c n j = rows1 m c n j :=
  layer_of_arrays (argSrc m c) (argDst m c) true (argX m c) (argW0 m c) (argB0 m c)
    (prodL1 m c) (scaledL1 m c) (aggL1 m c) (rowsL1 m c) (dcol m c) (biasL1 m c)
    (prod_l1 m c) (scaled_l1 m c) (V1_dinv m c) (V3_agg m (Hand.outs m) c) (V3_bias m (Hand.outs m) c) (comb_l1 m c) n j

theorem lin_of_rows (R h : Fin 50000 → Fin 64 → EReal) (W : Fin 64 → Fin 64 → EReal) (hR : ∀ n k, R n k = h n k)
    (n : Fin 50000) (j : Fin 64) : (∑ k : Fin 64, R n k * W k j) = Spec.lin h W n j := by
  unfold Spec.lin
  exact Finset.sum_congr rfl fun k _ => congrArg (· * W k j) (hR n k)

abbrev prodL2 (c : Dev nD) : Fin 50000 → Fin 64 → EReal := fun n j => Hand.outs m 5 main_v30_0 c (ix2 n j)
abbrev scaledL2 (c : Dev nD) : Fin 50000 → Fin 64 → EReal := fun n j => Hand.outs m 5 main_v30_1 c (ix2 n j)
abbrev aggL2 (c : Dev nD) : Fin 50000 → Fin 64 → EReal := fun n j => V6 m (Hand.outs m) c main_v40 (ix2 n j)
abbrev biasL2 (c : Dev nD) : Fin 64 → EReal := fun j => V6 m (Hand.outs m) c main_v41 (ix2 0 j)
abbrev rowsL2 (c : Dev nD) : Fin 50000 → Fin 64 → EReal := fun n j => Hand.outs m 7 main_v42 c (ix2 n j)

theorem outs5_prod (c : Dev nD) : Hand.outs m 5 main_v30_0 c = (Hand.dat2 (Hand.rd (V4 m (Hand.o4 m))) c).arrAt 3 cfg2.N := by
  rw [Hand.outs_5]
  exact Pipeline.withArrays_arr spec2 launch2.win.arr_inj c _ _ 3
theorem outs5_scaled (c : Dev nD) : Hand.outs m 5 main_v30_1 c = (Hand.dat2 (Hand.rd (V4 m (Hand.o4 m))) c).arrAt 4 cfg2.N := by
  rw [Hand.outs_5]
  exact Pipeline.withArrays_arr spec2 launch2.win.arr_inj c _ _ 4
theorem outs7_rows (c : Dev nD) : Hand.outs m 7 main_v42 c = (Hand.dat3 (Hand.rd (V6 m (Hand.o5 m))) c).arrAt 4 cfg3.N := by
  rw [Hand.outs_7]
  exact Pipeline.withArrays_arr spec3 launch3.win.arr_inj c _ _ 4

theorem prod_l2 (c : Dev nD) (n : Fin 50000) (j : Fin 64) :
    prodL2 m c n j = Spec.lin (rows1 m c) (argW1 m c) n j :=
  ((congrFun (outs5_prod m c) (ix2 n j)).trans
    (prod2_apply (Hand.rd (V4 m (Hand.o4 m))) c (Hand.outs m 4 main_v29 c) (m ((c : Thread nD τ).loc main_arg5))
      ((congrFun (Hand.V4_outs m c) main_v29).symm.trans (V4_prod m (Hand.outs m) c))
      ((congrFun (Hand.V4_outs m c) main_arg5).symm.trans (V4_arg5 m (Hand.outs m) c)) n j)).trans
    (lin_of_rows (rowsL1 m c) (rows1 m c) (argW1 m c) (layer1 m c) n j)

theorem scaled_l2 (c : Dev nD) (n : Fin 50000) (j : Fin 64) :
    scaledL2 m c n j = Spec.lin (rows1 m c) (argW1 m c) n j * dcol m c n :=
  ((congrFun (outs5_scaled m c) (ix2 n j)).trans
    (scaled2_apply (Hand.rd (V4 m (Hand.o4 m))) c (Hand.outs m 4 main_v29 c) (m ((c : Thread nD τ).loc main_arg5)) (V1 m c main_v11)
      ((congrFun (Hand.V4_outs m c) main_v29).symm.trans (V4_prod m (Hand.outs m) c))
      ((congrFun (Hand.V4_outs m c) main_arg5).symm.trans (V4_arg5 m (Hand.outs m) c))
      ((congrFun (Hand.V4_outs m c) main_v11).symm.trans (V4_dinvcol m (Hand.outs m) c)) n j)).trans
    (congrArg (· * dcol m c n) (lin_of_rows (rowsL1 m c) (rows1 m c) (argW1 m c) (layer1 m c) n j))

theorem comb_l2 (c : Dev nD) (n : Fin 50000) (j : Fin 64) :
    rowsL2 m c n j
      = Spec.act true (dcol m c n * aggL2 m c n j + prodL2 m c n j * (dcol m c n * dcol m c n) + biasL2 m c j) :=
  ((congrFun (outs7_rows m c) (ix2 n j)).trans
    (comb3_apply (Hand.rd (V6 m (Hand.o5 m))) c (V6 m (Hand.outs m) c main_v40) (Hand.outs m 5 main_v30_0 c) (V1 m c main_v11)
      (V6 m (Hand.outs m) c main_v41)
      (congrFun (Hand.V6_outs m c) main_v40).symm
      ((congrFun (Hand.V6_outs m c) main_v30_0).symm.trans (V6_prod m (Hand.outs m) c))
      ((congrFun (Hand.V6_outs m c) main_v11).symm.trans (V6_dinvcol m (Hand.outs m) c))
      (congrFun (Hand.V6_outs m c) main_v41).symm n j)).trans (act_true _).symm

theorem layer2 (c : Dev nD) (n : Fin 50000) (j : Fin 64) : rowsL2 m c n j = rows2 m c n j :=
  layer_of_arrays (argSrc m c) (argDst m c) true (rows1 m c) (argW1 m c) (argB1 m c)
    (prodL2 m c) (scaledL2 m c) (aggL2 m c) (rowsL2 m c) (dcol m c) (biasL2 m c)
    (prod_l2 m c) (scaled_l2 m c) (V1_dinv m c) (V6_agg m (Hand.outs m) c) (V6_bias m (Hand.outs m) c) (comb_l2 m c) n j

abbrev prodL3 (c : Dev nD) : Fin 50000 → Fin 64 → EReal := fun n j => Hand.outs m 8 main_v43_0 c (ix2 n j)
abbrev scaledL3 (c : Dev nD) : Fin 50000 → Fin 64 → EReal := fun n j => Hand.outs m 8 main_v43_1 c (ix2 n j)
abbrev aggL3 (c : Dev nD) : Fin 50000 → Fin 64 → EReal := fun n j => V9 m (Hand.outs m) c main_v53 (ix2 n j)
abbrev biasL3 (c : Dev nD) : Fin 64 → EReal := fun j => V9 m (Hand.outs m) c main_v54 (ix2 0 j)
abbrev rowsL3 (c : Dev nD) : Fin 50000 → Fin 64 → EReal := fun n j => Hand.outs m 10 main_v55 c (ix2 n j)

theorem outs8_prod (c : Dev nD) : Hand.outs m 8 main_v43_0 c = (Hand.dat4 (Hand.rd (V7 m (Hand.o7 m))) c).arrAt 3 cfg4.N := by
  rw [Hand.outs_8]
  exact Pipeline.withArrays_arr spec4 launch4.win.arr_inj c _ _ 3
theorem outs8_scaled (c : Dev nD) : Hand.outs m 8 main_v43_1 c = (Hand.dat4 (Hand.rd (V7 m (Hand.o7 m))) c).arrAt 4 cfg4.N := by
  rw [Hand.outs_8]
  exact Pipeline.withArrays_arr spec4 launch4.win.arr_inj c _ _ 4
theorem outs10_rows (c : Dev nD) : Hand.outs m 10 main_v55 c = (Hand.dat5 (Hand.rd (V9 m (Hand.o8 m))) c).arrAt 4 cfg5.N := by
  rw [Hand.outs_10]
  exact Pipeline.withArrays_arr spec5 launch5.win.arr_inj c _ _ 4

theorem prod_l3 (c : Dev nD) (n : Fin 50000) (j : Fin 64) :
    prodL3 m c n j = Spec.lin (rows2 m c) (argW2 m c) n j :=
  ((congrFun (outs8_prod m c) (ix2 n j)).trans
    (prod4_apply (Hand.rd (V7 m (Hand.o7 m))) c (Hand.outs m 7 main_v42 c) (m ((c : Thread nD τ).loc main_arg7))
      ((congrFun (Hand.V7_outs m c) main_v42).symm.trans (V7_prod m (Hand.outs m) c))
      ((congrFun (Hand.V7_outs m c) main_arg7).symm.trans (V7_arg7 m (Hand.outs m) c)) n j)).trans
    (lin_of_rows (rowsL2 m c) (rows2 m c) (argW2 m c) (layer2 m c) n j)

theorem scaled_l3 (c : Dev nD) (n : Fin 50000) (j : Fin 64) :
    scaledL3 m c n j = Spec.lin (rows2 m c) (argW2 m c) n j * dcol m c n :=
  ((congrFun (outs8_scaled m c) (ix2 n j)).trans
    (scaled4_apply (Hand.rd (V7 m (Hand.o7 m))) c (Hand.outs m 7 main_v42 c) (m ((c : Thread nD τ).loc main_arg7)) (V1 m c main_v11)
      ((congrFun (Hand.V7_outs m c) main_v42).symm.trans (V7_prod m (Hand.outs m) c))
      ((congrFun (Hand.V7_outs m c) main_arg7).symm.trans (V7_arg7 m (Hand.outs m) c))
      ((congrFun (Hand.V7_outs m c) main_v11).symm.trans (V7_dinvcol m (Hand.outs m) c)) n j)).trans
    (congrArg (· * dcol m c n) (lin_of_rows (rowsL2 m c) (rows2 m c) (argW2 m c) (layer2 m c) n j))

theorem comb_l3 (c : Dev nD) (n : Fin 50000) (j : Fin 64) :
    rowsL3 m c n j
      = Spec.act false (dcol m c n * aggL3 m c n j + prodL3 m c n j * (dcol m c n * dcol m c n) + biasL3 m c j) :=
  ((congrFun (outs10_rows m c) (ix2 n j)).trans
    (comb5_apply (Hand.rd (V9 m (Hand.o8 m))) c (V9 m (Hand.outs m) c main_v53) (Hand.outs m 8 main_v43_0 c) (V1 m c main_v11)
      (V9 m (Hand.outs m) c main_v54)
      (congrFun (Hand.V9_outs m c) main_v53).symm
      ((congrFun (Hand.V9_outs m c) main_v43_0).symm.trans (V9_prod m (Hand.outs m) c))
      ((congrFun (Hand.V9_outs m c) main_v11).symm.trans (V9_dinvcol m (Hand.outs m) c))
      (congrFun (Hand.V9_outs m c) main_v54).symm n j)).trans (act_false _).symm

theorem layer3 (c : Dev nD) (n : Fin 50000) (j : Fin 64) : rowsL3 m c n j = rows3 m c n j :=
  layer_of_arrays (argSrc m c) (argDst m c) false (rows2 m c) (argW2 m c) (argB2 m c)
    (prodL3 m c) (scaledL3 m c) (aggL3 m c) (rowsL3 m c) (dcol m c) (biasL3 m c)
    (prod_l3 m c) (scaled_l3 m c) (V1_dinv m c) (V9_agg m (Hand.outs m) c) (V9_bias m (Hand.outs m) c) (comb_l3 m c) n j

theorem rows3_eq (c : Dev nD) :
    rows3 m c = Spec.netK (argSrc m c) (argDst m c) (argX m c) (argW0 m c) (argW1 m c) (argW2 m c) (argB0 m c) (argB1 m c) (argB2 m c) := rfl

theorem poolK_congr (b b' : Fin 50000 → BitVec 32) (w w' : Fin 64 → EReal) (p p' : EReal) (h h' : Fin 50000 → Fin 64 → EReal)
    (hb : ∀ n, b' n = b n) (hw : ∀ j, w' j = w j) (hp : p' = p) (hh : ∀ n j, h' n j = h n j) (g : Fin 64) :
    Spec.poolK b' w' p' h' g = Spec.poolK b w p h g := by
  obtain rfl : b' = b := funext hb
  obtain rfl : w' = w := funext hw
  obtain rfl : h' = h := funext fun n => funext (hh n)
  subst hp
  rfl

theorem outs12_out (c : Dev nD) : Hand.outs m 12 main_v58 c = (Hand.dat6 (Hand.rd (V11 m (Hand.o10 m))) c).arrAt 5 cfg6.N := by
  rw [Hand.outs_12]
  exact Pipeline.withArrays_arr spec6 launch6.win.arr_inj c _ _ 5

theorem batch_l (c : Dev nD) (n : Fin 50000) : Hand.rd (V11 m (Hand.o10 m)) c main_v56 (ix2 n 0) = argBatch m c n :=
  (congrFun (congrFun (Hand.V11_outs m c) main_v56) (ix2 n 0)).symm.trans (V11_batch m (Hand.outs m) c n)

theorem counts_l (c : Dev nD) (g : Fin 64) :
    Hand.rd (V11 m (Hand.o10 m)) c main_v16 (ix2 g 0)
      = Spec.counts (fun n => Hand.rd (V11 m (Hand.o10 m)) c main_v56 (ix2 n 0)) g := by
  rw [show (fun n => Hand.rd (V11 m (Hand.o10 m)) c main_v56 (ix2 n 0)) = argBatch m c from funext (batch_l m c)]
  exact ((congrFun (congrFun (Hand.V11_outs m c) main_v16) (ix2 g 0)).symm.trans
    (congrFun (V11_countscol m (Hand.outs m) c) (ix2 g 0))).trans (V1_counts m c g)

-- The program's result at graph g is the block-wise pooled head over the three layers.
theorem result_apply (c : Dev nD) (g : Fin 64) :
    V13 m (Hand.outs m) c main_v59 (ValueIdx.ix1 g)
      = Cert.Spec.resK (fun e => m ((c : Thread nD τ).loc main_arg1) (ValueIdx.ix2 0 e)) (fun e => m ((c : Thread nD τ).loc main_arg1) (ValueIdx.ix2 1 e))
          (fun n => m ((c : Thread nD τ).loc main_arg2) (ValueIdx.ix1 n)) (fun n k => m ((c : Thread nD τ).loc main_arg0) (ValueIdx.ix2 n k))
          (fun k j => m ((c : Thread nD τ).loc main_arg3) (ValueIdx.ix2 k j)) (fun k j => m ((c : Thread nD τ).loc main_arg5) (ValueIdx.ix2 k j)) (fun k j => m ((c : Thread nD τ).loc main_arg7) (ValueIdx.ix2 k j))
          (fun j => m ((c : Thread nD τ).loc main_arg4) (ValueIdx.ix1 j)) (fun j => m ((c : Thread nD τ).loc main_arg6) (ValueIdx.ix1 j)) (fun j => m ((c : Thread nD τ).loc main_arg8) (ValueIdx.ix1 j))
          (fun j => m ((c : Thread nD τ).loc main_arg9) (ValueIdx.ix2 j 0)) (m ((c : Thread nD τ).loc main_arg10) (ValueIdx.ix1 0)) g := by
  refine (V13_out m (Hand.outs m) c g).trans ?_
  refine (congrFun (outs12_out m c) (ix2 g 0)).trans ?_
  refine (pool6_apply (Hand.rd (V11 m (Hand.o10 m))) c (counts_l m c) g).trans ?_
  show _ = Spec.poolK (argBatch m c) (argWp m c) (argBp m c)
    (Spec.netK (argSrc m c) (argDst m c) (argX m c) (argW0 m c) (argW1 m c) (argW2 m c) (argB0 m c) (argB1 m c) (argB2 m c)) g
  rw [← rows3_eq]
  refine poolK_congr (argBatch m c) _ (argWp m c) _ (argBp m c) _ (rows3 m c) _ (batch_l m c) (fun j => ?_) ?_ (fun n j => ?_) g
  · exact (congrFun (congrFun (Hand.V11_outs m c) main_arg9) (ix2 j 0)).symm.trans
      (congrFun (V11_arg9 m (Hand.outs m) c) (ix2 j 0))
  · exact (congrFun (congrFun (Hand.V11_outs m c) main_v57) (ix2 0 0)).symm.trans (V11_bp m (Hand.outs m) c)
  · exact ((congrFun (congrFun (Hand.V11_outs m c) main_v55) (ix2 n j)).symm.trans
      (congrFun (V11_prod m (Hand.outs m) c) (ix2 n j))).trans (layer3 m c n j)

end Cert.KernelIdeal.Val

end
-- ==== Proof.KI.RegSeg.lean ====
/- A kernel call as a segment of the program's run, once for all seven calls: entered with every array at some contents,
   left with the call's arrays at what the call leaves in them and every other array as it was. -/
import proofs.«415099_j43559558316604_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def regSeg (p : Fin 7) (launch : Pipeline.LaunchFacts (nD := nD) (τ := τ) cfgs p) (Vin Vout : Dev nD → Valuation τ sig (Elt F))
    (hbody : ∀ c, BodyObligation (pdats m p c) (defs₀ (F := F)) Variants.none () Set.univ)
    (hshare : ∀ c w, (pdats m p c).share w = fullShare)
    (hA : ∀ c w, (pdats m p c).A w = rd Vin c (Pipeline.arrRef (cfgs p).spec w))
    (howed : ∀ c t, (pdats m p c).owed t = 0) (hrec : ∀ c, (pdats m p c).recorded 0 = Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hF : ∀ c w, (pdats m p c).arrAt w (cfgs p).N = rd Vout c (Pipeline.arrRef (cfgs p).spec w))
    (hrest : ∀ c b, b ∉ Finset.univ.image (Pipeline.arrRef (cfgs p).spec) → rd Vout c b = rd Vin c b) :
    Pipeline.RegionSeg (pcfgs (F := F)) adm (pdats m) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (rd Vin c)
  hentry c := by
    rw [Pipeline.ownSems0_none]
    have hsplit := Pipeline.arrays_of_unscopedBufs (p := p) (pcfgs (F := F)) adm (pdats m) launch.win launch.arr_whole c
      (hshare c) (rd Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hshare c)
      (rd Vin c) (rd Vout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.Reg0.lean ====
/- Call 0 as a segment of the program's run: entered with every array at what the items before it leave, left with
   its two output arrays at what the grid points wrote and every other array as it was. -/
import proofs.«415099_j43559558316604_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vin0 : Dev nD → Valuation τ sig (Elt F) := V1 m
abbrev Vprog0 : Dev nD → Valuation τ sig (Elt F) := (V1 m)
abbrev Vout0 : Dev nD → Valuation τ sig (Elt F) := V2 m (outs m)
theorem Vin0_eq (c : Dev nD) : Vprog0 m c = Vin0 m c := V1_outs m c

theorem Vout0_of (c : Dev nD) (r : Ref sig .tc) (h : r ∉ ([main_v17_0, main_v17_1] : List (Ref sig .tc))) :
    Vout0 m c r = Vin0 m c r := (V2_of m (outs m) c r h).trans (congrFun (Vin0_eq m c) r)

theorem Vout0_fst (c : Dev nD) : Vout0 m c main_v17_0 = (dat0 (rd (Vin0 m)) c).arrAt 3 cfg0.N := by
  show Function.update (Function.update (Vprog0 m c) main_v17_0 (outs m 2 main_v17_0 c)) main_v17_1 (outs m 2 main_v17_1 c) main_v17_0 = _
  rw [Function.update_of_ne (StableHlo.devRef_ne_of_ne (by decide) : (Proc.devRef .tc main_v17_0 : DevRef τ sig) ≠ Proc.devRef .tc main_v17_1),
    Function.update_self, outs_2]
  exact Pipeline.withArrays_arr spec0 launch0.win.arr_inj c _ _ 3

theorem Vout0_snd (c : Dev nD) : Vout0 m c main_v17_1 = (dat0 (rd (Vin0 m)) c).arrAt 4 cfg0.N := by
  show Function.update (Function.update (Vprog0 m c) main_v17_0 (outs m 2 main_v17_0 c)) main_v17_1 (outs m 2 main_v17_1 c) main_v17_1 = _
  rw [Function.update_self, outs_2]
  exact Pipeline.withArrays_arr spec0 launch0.win.arr_inj c _ _ 4

-- At exit an input array holds what it held and an output array what the grid points wrote.
set_option maxHeartbeats 4000000 in
theorem hF0 (c : Dev nD) (w : Fin cfg0.W) :
    (pdats m 0 c).arrAt w cfg0.N = rd (Vout0 m) c (Pipeline.arrRef spec0 w) := by
  show (dat0 (rd (Vin0 m)) c).arrAt w cfg0.N = _
  match w with
  | ⟨0, _⟩ => exact ((dat0 (rd (Vin0 m)) c).arrAt_in 0 rfl _).trans ((A_eq0 (rd (Vin0 m)) c 0).trans (Vout0_of m c _ (by decide)).symm)
  | ⟨1, _⟩ => exact ((dat0 (rd (Vin0 m)) c).arrAt_in 1 rfl _).trans ((A_eq0 (rd (Vin0 m)) c 1).trans (Vout0_of m c _ (by decide)).symm)
  | ⟨2, _⟩ => exact ((dat0 (rd (Vin0 m)) c).arrAt_in 2 rfl _).trans ((A_eq0 (rd (Vin0 m)) c 2).trans (Vout0_of m c _ (by decide)).symm)
  | ⟨3, _⟩ => exact (Vout0_fst m c).symm
  | ⟨4, _⟩ => exact (Vout0_snd m c).symm

theorem hrest0 (c : Dev nD) : ∀ b, b ∉ Finset.univ.image (Pipeline.arrRef spec0) → rd (Vout0 m) c b = rd (Vin0 m) c b := fun b hb =>
  Vout0_of m c b fun hmem => by
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem (List.not_mem_nil)

set_option backward.isDefEq.respectTransparency.types false in
def reg0 : Pipeline.RegionSeg (pcfgs (F := F)) adm (pdats m) () defs₀ Variants.none L lv 0 :=
  regSeg m 0 launch0 (Vin0 m) (Vout0 m) (fun c => body_obligation0 (rd (Vin0 m)) c) (fun c => (pdats m 0 c).share_full fun _ => rfl)
    (fun _ _ => rfl) (fun _ _ => rfl) (fun _ => rfl) (fun _ => .rfl) (fun _ => .rfl) (hF0 m) (hrest0 m)

theorem hpre0 (c : Dev nD) : iprop(StableHlo.held (c : Thread nD τ) (Pipeline.ucRefs τ sig) (Vprog0 m c) ∗ E 0 c) ⊢ (reg0 m).pre c := by
  rw [Vin0_eq m c]; exact .rfl
theorem hpost0 (c : Dev nD) : (reg0 m).post c ⊢ iprop(StableHlo.held (c : Thread nD τ) (Pipeline.ucRefs τ sig) (Vout0 m c) ∗ E 1 c) := .rfl

end Cert.KernelIdeal.Hand

end
-- ==== Proof.KI.Reg1.lean ====
/- Call 1 as a segment of the program's run: entered with every array at what the items before it leave, left with
   its output array at what the grid points wrote and every other array as it was. -/
import proofs.«415099_j43559558316604_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vin1 : Dev nD → Valuation τ sig (Elt F) := V3 m (o2 m)
abbrev Vprog1 : Dev nD → Valuation τ sig (Elt F) := V3 m (outs m)
abbrev Vout1 : Dev nD → Valuation τ sig (Elt F) := V4 m (outs m)
theorem Vin1_eq (c : Dev nD) : Vprog1 m c = Vin1 m c := V3_outs m c

theorem Vout1_of (c : Dev nD) (r : Ref sig .tc) (h : r ∉ ([main_v29] : List (Ref sig .tc))) :
    Vout1 m c r = Vin1 m c r := (V4_of m (outs m) c r h).trans (congrFun (Vin1_eq m c) r)

theorem Vout1_fst (c : Dev nD) : Vout1 m c main_v29 = (dat1 (rd (Vin1 m)) c).arrAt 4 cfg1.N := by
  show Function.update (Vprog1 m c) main_v29 (outs m 4 main_v29 c) main_v29 = _
  rw [Function.update_self, outs_4]
  exact Pipeline.withArrays_arr spec1 launch1.win.arr_inj c _ _ 4

-- At exit an input array holds what it held and an output array what the grid points wrote.
set_option maxHeartbeats 4000000 in
theorem hF1 (c : Dev nD) (w : Fin cfg1.W) :
    (pdats m 1 c).arrAt w cfg1.N = rd (Vout1 m) c (Pipeline.arrRef spec1 w) := by
  show (dat1 (rd (Vin1 m)) c).arrAt w cfg1.N = _
  match w with
  | ⟨0, _⟩ => exact ((dat1 (rd (Vin1 m)) c).arrAt_in 0 rfl _).trans ((A_eq1 (rd (Vin1 m)) c 0).trans (Vout1_of m c _ (by decide)).symm)
  | ⟨1, _⟩ => exact ((dat1 (rd (Vin1 m)) c).arrAt_in 1 rfl _).trans ((A_eq1 (rd (Vin1 m)) c 1).trans (Vout1_of m c _ (by decide)).symm)
  | ⟨2, _⟩ => exact ((dat1 (rd (Vin1 m)) c).arrAt_in 2 rfl _).trans ((A_eq1 (rd (Vin1 m)) c 2).trans (Vout1_of m c _ (by decide)).symm)
  | ⟨3, _⟩ => exact ((dat1 (rd (Vin1 m)) c).arrAt_in 3 rfl _).trans ((A_eq1 (rd (Vin1 m)) c 3).trans (Vout1_of m c _ (by decide)).symm)
  | ⟨4, _⟩ => exact (Vout1_fst m c).symm

theorem hrest1 (c : Dev nD) : ∀ b, b ∉ Finset.univ.image (Pipeline.arrRef spec1) → rd (Vout1 m) c b = rd (Vin1 m) c b := fun b hb =>
  Vout1_of m c b fun hmem => by
    rcases List.mem_cons.mp hmem with rfl | hmem
    · exact hb (Finset.mem_image.mpr ⟨4, Finset.mem_univ _, rfl⟩)
    · exact absurd hmem (List.not_mem_nil)

set_option backward.isDefEq.respectTransparency.types false in
def reg1 : Pipeline.RegionSeg (pcfgs (F := F)) adm (pdats m) () defs₀ Variants.none L lv 1 :=
  regSeg m 1 launch1 (Vin1 m) (Vout1 m) (fun c => body_obligation1 (rd (Vin1 m)) c) (fun c => (pdats m 1 c).share_full fun _ => rfl)
    (fun _ _ => rfl) (fun _ _ => rfl) (fun _ => rfl) (fun _ => .rfl) (fun _ => .rfl) (hF1 m) (hrest1 m)

theorem hpre1 (c : Dev nD) : iprop(StableHlo.held (c : Thread nD τ) (Pipeline.ucRefs τ sig) (Vprog1 m c) ∗ E 1 c) ⊢ (reg1 m).pre c := by
  rw [Vin1_eq m c]; exact .rfl
theorem hpost1 (c : Dev nD) : (reg1 m).post c ⊢ iprop(StableHlo.held (c : Thread nD τ) (Pipeline.ucRefs τ sig) (Vout1 m c) ∗ E 2 c) := .rfl

end Cert.KernelIdeal.Hand

end
-- ==== Proof.KI.Reg2.lean ====
/- Call 2 as a segment of the program's run: entered with every array at what the items before it leave, left with
   its two output arrays at what the grid points wrote and every other array as it was. -/
import proofs.«415099_j43559558316604_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vin2 : Dev nD → Valuation τ sig (Elt F) := V4 m (o4 m)
abbrev Vprog2 : Dev nD → Valuation τ sig (Elt F) := V4 m (outs m)
abbrev Vout2 : Dev nD → Valuation τ sig (Elt F) := V5 m (outs m)
theorem Vin2_eq (c : Dev nD) : Vprog2 m c = Vin2 m c := V4_outs m c

theorem Vout2_of (c : Dev nD) (r : Ref sig .tc) (h : r ∉ ([main_v30_0, main_v30_1] : List (Ref sig .tc))) :
    Vout2 m c r = Vin2 m c r := (V5_of m (outs m) c r h).trans (congrFun (Vin2_eq m c) r)

theorem Vout2_fst (c : Dev nD) : Vout2 m c main_v30_0 = (dat2 (rd (Vin2 m)) c).arrAt 3 cfg2.N := by
  show Function.update (Function.update (Vprog2 m c) main_v30_0 (outs m 5 main_v30_0 c)) main_v30_1 (outs m 5 main_v30_1 c) main_v30_0 = _
  rw [Function.update_of_ne (StableHlo.devRef_ne_of_ne (by decide) : (Proc.devRef .tc main_v30_0 : DevRef τ sig) ≠ Proc.devRef .tc main_v30_1),
    Function.update_self, outs_5]
  exact Pipeline.withArrays_arr spec2 launch2.win.arr_inj c _ _ 3

theorem Vout2_snd (c : Dev nD) : Vout2 m c main_v30_1 = (dat2 (rd (Vin2 m)) c).arrAt 4 cfg2.N := by
  show Function.update (Function.update (Vprog2 m c) main_v30_0 (outs m 5 main_v30_0 c)) main_v30_1 (outs m 5 main_v30_1 c) main_v30_1 = _
  rw [Function.update_self, outs_5]
  exact Pipeline.withArrays_arr spec2 launch2.win.arr_inj c _ _ 4

-- At exit an input array holds what it held and an output array what the grid points wrote.
set_option maxHeartbeats 4000000 in
theorem hF2 (c : Dev nD) (w : Fin cfg2.W) :
    (pdats m 2 c).arrAt w cfg2.N = rd (Vout2 m) c (Pipeline.arrRef spec2 w) := by
  show (dat2 (rd (Vin2 m)) c).arrAt w cfg2.N = _
  match w with
  | ⟨0, _⟩ => exact ((dat2 (rd (Vin2 m)) c).arrAt_in 0 rfl _).trans ((A_eq2 (rd (Vin2 m)) c 0).trans (Vout2_of m c _ (by decide)).symm)
  | ⟨1, _⟩ => exact ((dat2 (rd (Vin2 m)) c).arrAt_in 1 rfl _).trans ((A_eq2 (rd (Vin2 m)) c 1).trans (Vout2_of m c _ (by decide)).symm)
  | ⟨2, _⟩ => exact ((dat2 (rd (Vin2 m)) c).arrAt_in 2 rfl _).trans ((A_eq2 (rd (Vin2 m)) c 2).trans (Vout2_of m c _ (by decide)).symm)
  | ⟨3, _⟩ => exact (Vout2_fst m c).symm
  | ⟨4, _⟩ => exact (Vout2_snd m c).symm

theorem hrest2 (c : Dev nD) : ∀ b, b ∉ Finset.univ.image (Pipeline.arrRef spec2) → rd (Vout2 m) c b = rd (Vin2 m) c b := fun b hb =>
  Vout2_of m c b fun hmem => by
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem (List.not_mem_nil)

set_option backward.isDefEq.respectTransparency.types false in
def reg2 : Pipeline.RegionSeg (pcfgs (F := F)) adm (pdats m) () defs₀ Variants.none L lv 2 :=
  regSeg m 2 launch2 (Vin2 m) (Vout2 m) (fun c => body_obligation2 (rd (Vin2 m)) c) (fun c => (pdats m 2 c).share_full fun _ => rfl)
    (fun _ _ => rfl) (fun _ _ => rfl) (fun _ => rfl) (fun _ => .rfl) (fun _ => .rfl) (hF2 m) (hrest2 m)

theorem hpre2 (c : Dev nD) : iprop(StableHlo.held (c : Thread nD τ) (Pipeline.ucRefs τ sig) (Vprog2 m c) ∗ E 2 c) ⊢ (reg2 m).pre c := by
  rw [Vin2_eq m c]; exact .rfl
theorem hpost2 (c : Dev nD) : (reg2 m).post c ⊢ iprop(StableHlo.held (c : Thread nD τ) (Pipeline.ucRefs τ sig) (Vout2 m c) ∗ E 3 c) := .rfl

end Cert.KernelIdeal.Hand

end
-- ==== Proof.KI.Reg3.lean ====
/- Call 3 as a segment of the program's run: entered with every array at what the items before it leave, left with
   its output array at what the grid points wrote and every other array as it was. -/
import proofs.«415099_j43559558316604_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vin3 : Dev nD → Valuation τ sig (Elt F) := V6 m (o5 m)
abbrev Vprog3 : Dev nD → Valuation τ sig (Elt F) := V6 m (outs m)
abbrev Vout3 : Dev nD → Valuation τ sig (Elt F) := V7 m (outs m)
theorem Vin3_eq (c : Dev nD) : Vprog3 m c = Vin3 m c := V6_outs m c

theorem Vout3_of (c : Dev nD) (r : Ref sig .tc) (h : r ∉ ([main_v42] : List (Ref sig .tc))) :
    Vout3 m c r = Vin3 m c r := (V7_of m (outs m) c r h).trans (congrFun (Vin3_eq m c) r)

theorem Vout3_fst (c : Dev nD) : Vout3 m c main_v42 = (dat3 (rd (Vin3 m)) c).arrAt 4 cfg3.N := by
  show Function.update (Vprog3 m c) main_v42 (outs m 7 main_v42 c) main_v42 = _
  rw [Function.update_self, outs_7]
  exact Pipeline.withArrays_arr spec3 launch3.win.arr_inj c _ _ 4

-- At exit an input array holds what it held and an output array what the grid points wrote.
set_option maxHeartbeats 4000000 in
theorem hF3 (c : Dev nD) (w : Fin cfg3.W) :
    (pdats m 3 c).arrAt w cfg3.N = rd (Vout3 m) c (Pipeline.arrRef spec3 w) := by
  show (dat3 (rd (Vin3 m)) c).arrAt w cfg3.N = _
  match w with
  | ⟨0, _⟩ => exact ((dat3 (rd (Vin3 m)) c).arrAt_in 0 rfl _).trans ((A_eq3 (rd (Vin3 m)) c 0).trans (Vout3_of m c _ (by decide)).symm)
  | ⟨1, _⟩ => exact ((dat3 (rd (Vin3 m)) c).arrAt_in 1 rfl _).trans ((A_eq3 (rd (Vin3 m)) c 1).trans (Vout3_of m c _ (by decide)).symm)
  | ⟨2, _⟩ => exact ((dat3 (rd (Vin3 m)) c).arrAt_in 2 rfl _).trans ((A_eq3 (rd (Vin3 m)) c 2).trans (Vout3_of m c _ (by decide)).symm)
  | ⟨3, _⟩ => exact ((dat3 (rd (Vin3 m)) c).arrAt_in 3 rfl _).trans ((A_eq3 (rd (Vin3 m)) c 3).trans (Vout3_of m c _ (by decide)).symm)
  | ⟨4, _⟩ => exact (Vout3_fst m c).symm

theorem hrest3 (c : Dev nD) : ∀ b, b ∉ Finset.univ.image (Pipeline.arrRef spec3) → rd (Vout3 m) c b = rd (Vin3 m) c b := fun b hb =>
  Vout3_of m c b fun hmem => by
    rcases List.mem_cons.mp hmem with rfl | hmem
    · exact hb (Finset.mem_image.mpr ⟨4, Finset.mem_univ _, rfl⟩)
    · exact absurd hmem (List.not_mem_nil)

set_option backward.isDefEq.respectTransparency.types false in
def reg3 : Pipeline.RegionSeg (pcfgs (F := F)) adm (pdats m) () defs₀ Variants.none L lv 3 :=
  regSeg m 3 launch3 (Vin3 m) (Vout3 m) (fun c => body_obligation3 (rd (Vin3 m)) c) (fun c => (pdats m 3 c).share_full fun _ => rfl)
    (fun _ _ => rfl) (fun _ _ => rfl) (fun _ => rfl) (fun _ => .rfl) (fun _ => .rfl) (hF3 m) (hrest3 m)

theorem hpre3 (c : Dev nD) : iprop(StableHlo.held (c : Thread nD τ) (Pipeline.ucRefs τ sig) (Vprog3 m c) ∗ E 3 c) ⊢ (reg3 m).pre c := by
  rw [Vin3_eq m c]; exact .rfl
theorem hpost3 (c : Dev nD) : (reg3 m).post c ⊢ iprop(StableHlo.held (c : Thread nD τ) (Pipeline.ucRefs τ sig) (Vout3 m c) ∗ E 4 c) := .rfl

end Cert.KernelIdeal.Hand

end
-- ==== Proof.KI.Reg4.lean ====
/- Call 4 as a segment of the program's run: entered with every array at what the items before it leave, left with
   its two output arrays at what the grid points wrote and every other array as it was. -/
import proofs.«415099_j43559558316604_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vin4 : Dev nD → Valuation τ sig (Elt F) := V7 m (o7 m)
abbrev Vprog4 : Dev nD → Valuation τ sig (Elt F) := V7 m (outs m)
abbrev Vout4 : Dev nD → Valuation τ sig (Elt F) := V8 m (outs m)
theorem Vin4_eq (c : Dev nD) : Vprog4 m c = Vin4 m c := V7_outs m c

theorem Vout4_of (c : Dev nD) (r : Ref sig .tc) (h : r ∉ ([main_v43_0, main_v43_1] : List (Ref sig .tc))) :
    Vout4 m c r = Vin4 m c r := (V8_of m (outs m) c r h).trans (congrFun (Vin4_eq m c) r)

theorem Vout4_fst (c : Dev nD) : Vout4 m c main_v43_0 = (dat4 (rd (Vin4 m)) c).arrAt 3 cfg4.N := by
  show Function.update (Function.update (Vprog4 m c) main_v43_0 (outs m 8 main_v43_0 c)) main_v43_1 (outs m 8 main_v43_1 c) main_v43_0 = _
  rw [Function.update_of_ne (StableHlo.devRef_ne_of_ne (by decide) : (Proc.devRef .tc main_v43_0 : DevRef τ sig) ≠ Proc.devRef .tc main_v43_1),
    Function.update_self, outs_8]
  exact Pipeline.withArrays_arr spec4 launch4.win.arr_inj c _ _ 3

theorem Vout4_snd (c : Dev nD) : Vout4 m c main_v43_1 = (dat4 (rd (Vin4 m)) c).arrAt 4 cfg4.N := by
  show Function.update (Function.update (Vprog4 m c) main_v43_0 (outs m 8 main_v43_0 c)) main_v43_1 (outs m 8 main_v43_1 c) main_v43_1 = _
  rw [Function.update_self, outs_8]
  exact Pipeline.withArrays_arr spec4 launch4.win.arr_inj c _ _ 4

-- At exit an input array holds what it held and an output array what the grid points wrote.
set_option maxHeartbeats 4000000 in
theorem hF4 (c : Dev nD) (w : Fin cfg4.W) :
    (pdats m 4 c).arrAt w cfg4.N = rd (Vout4 m) c (Pipeline.arrRef spec4 w) := by
  show (dat4 (rd (Vin4 m)) c).arrAt w cfg4.N = _
  match w with
  | ⟨0, _⟩ => exact ((dat4 (rd (Vin4 m)) c).arrAt_in 0 rfl _).trans ((A_eq4 (rd (Vin4 m)) c 0).trans (Vout4_of m c _ (by decide)).symm)
  | ⟨1, _⟩ => exact ((dat4 (rd (Vin4 m)) c).arrAt_in 1 rfl _).trans ((A_eq4 (rd (Vin4 m)) c 1).trans (Vout4_of m c _ (by decide)).symm)
  | ⟨2, _⟩ => exact ((dat4 (rd (Vin4 m)) c).arrAt_in 2 rfl _).trans ((A_eq4 (rd (Vin4 m)) c 2).trans (Vout4_of m c _ (by decide)).symm)
  | ⟨3, _⟩ => exact (Vout4_fst m c).symm
  | ⟨4, _⟩ => exact (Vout4_snd m c).symm

theorem hrest4 (c : Dev nD) : ∀ b, b ∉ Finset.univ.image (Pipeline.arrRef spec4) → rd (Vout4 m) c b = rd (Vin4 m) c b := fun b hb =>
  Vout4_of m c b fun hmem => by
    rcases List.mem_cons.mp hmem with rfl | hmem
    · exact hb (Finset.mem_image.mpr ⟨3, Finset.mem_univ _, rfl⟩)
    · rcases List.mem_cons.mp hmem with rfl | hmem
      · exact hb (Finset.mem_image.mpr ⟨4, Finset.mem_univ _, rfl⟩)
      · exact absurd hmem (List.not_mem_nil)

set_option backward.isDefEq.respectTransparency.types false in
def reg4 : Pipeline.RegionSeg (pcfgs (F := F)) adm (pdats m) () defs₀ Variants.none L lv 4 :=
  regSeg m 4 launch4 (Vin4 m) (Vout4 m) (fun c => body_obligation4 (rd (Vin4 m)) c) (fun c => (pdats m 4 c).share_full fun _ => rfl)
    (fun _ _ => rfl) (fun _ _ => rfl) (fun _ => rfl) (fun _ => .rfl) (fun _ => .rfl) (hF4 m) (hrest4 m)

theorem hpre4 (c : Dev nD) : iprop(StableHlo.held (c : Thread nD τ) (Pipeline.ucRefs τ sig) (Vprog4 m c) ∗ E 4 c) ⊢ (reg4 m).pre c := by
  rw [Vin4_eq m c]; exact .rfl
theorem hpost4 (c : Dev nD) : (reg4 m).post c ⊢ iprop(StableHlo.held (c : Thread nD τ) (Pipeline.ucRefs τ sig) (Vout4 m c) ∗ E 5 c) := .rfl

end Cert.KernelIdeal.Hand

end
-- ==== Proof.KI.Reg5.lean ====
/- Call 5 as a segment of the program's run: entered with every array at what the items before it leave, left with
   its output array at what the grid points wrote and every other array as it was. -/
import proofs.«415099_j43559558316604_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vin5 : Dev nD → Valuation τ sig (Elt F) := V9 m (o8 m)
abbrev Vprog5 : Dev nD → Valuation τ sig (Elt F) := V9 m (outs m)
abbrev Vout5 : Dev nD → Valuation τ sig (Elt F) := V10 m (outs m)
theorem Vin5_eq (c : Dev nD) : Vprog5 m c = Vin5 m c := V9_outs m c

theorem Vout5_of (c : Dev nD) (r : Ref sig .tc) (h : r ∉ ([main_v55] : List (Ref sig .tc))) :
    Vout5 m c r = Vin5 m c r := (V10_of m (outs m) c r h).trans (congrFun (Vin5_eq m c) r)

theorem Vout5_fst (c : Dev nD) : Vout5 m c main_v55 = (dat5 (rd (Vin5 m)) c).arrAt 4 cfg5.N := by
  show Function.update (Vprog5 m c) main_v55 (outs m 10 main_v55 c) main_v55 = _
  rw [Function.update_self, outs_10]
  exact Pipeline.withArrays_arr spec5 launch5.win.arr_inj c _ _ 4

-- At exit an input array holds what it held and an output array what the grid points wrote.
set_option maxHeartbeats 4000000 in
theorem hF5 (c : Dev nD) (w : Fin cfg5.W) :
    (pdats m 5 c).arrAt w cfg5.N = rd (Vout5 m) c (Pipeline.arrRef spec5 w) := by
  show (dat5 (rd (Vin5 m)) c).arrAt w cfg5.N = _
  match w with
  | ⟨0, _⟩ => exact ((dat5 (rd (Vin5 m)) c).arrAt_in 0 rfl _).trans ((A_eq5 (rd (Vin5 m)) c 0).trans (Vout5_of m c _ (by decide)).symm)
  | ⟨1, _⟩ => exact ((dat5 (rd (Vin5 m)) c).arrAt_in 1 rfl _).trans ((A_eq5 (rd (Vin5 m)) c 1).trans (Vout5_of m c _ (by decide)).symm)
  | ⟨2, _⟩ => exact ((dat5 (rd (Vin5 m)) c).arrAt_in 2 rfl _).trans ((A_eq5 (rd (Vin5 m)) c 2).trans (Vout5_of m c _ (by decide)).symm)
  | ⟨3, _⟩ => exact ((dat5 (rd (Vin5 m)) c).arrAt_in 3 rfl _).trans ((A_eq5 (rd (Vin5 m)) c 3).trans (Vout5_of m c _ (by decide)).symm)
  | ⟨4, _⟩ => exact (Vout5_fst m c).symm

theorem hrest5 (c : Dev nD) : ∀ b, b ∉ Finset.univ.image (Pipeline.arrRef spec5) → rd (Vout5 m) c b = rd (Vin5 m) c b := fun b hb =>
  Vout5_of m c b fun hmem => by
    rcases List.mem_cons.mp hmem with rfl | hmem
    · exact hb (Finset.mem_image.mpr ⟨4, Finset.mem_univ _, rfl⟩)
    · exact absurd hmem (List.not_mem_nil)

set_option backward.isDefEq.respectTransparency.types false in
def reg5 : Pipeline.RegionSeg (pcfgs (F := F)) adm (pdats m) () defs₀ Variants.none L lv 5 :=
  regSeg m 5 launch5 (Vin5 m) (Vout5 m) (fun c => body_obligation5 (rd (Vin5 m)) c) (fun c => (pdats m 5 c).share_full fun _ => rfl)
    (fun _ _ => rfl) (fun _ _ => rfl) (fun _ => rfl) (fun _ => .rfl) (fun _ => .rfl) (hF5 m) (hrest5 m)

theorem hpre5 (c : Dev nD) : iprop(StableHlo.held (c : Thread nD τ) (Pipeline.ucRefs τ sig) (Vprog5 m c) ∗ E 5 c) ⊢ (reg5 m).pre c := by
  rw [Vin5_eq m c]; exact .rfl
theorem hpost5 (c : Dev nD) : (reg5 m).post c ⊢ iprop(StableHlo.held (c : Thread nD τ) (Pipeline.ucRefs τ sig) (Vout5 m c) ∗ E 6 c) := .rfl

end Cert.KernelIdeal.Hand

end
-- ==== Proof.KI.Reg6.lean ====
/- Call 6 as a segment of the program's run: entered with every array at what the items before it leave, left with
   its output array at what the grid points wrote and every other array as it was. The sums it carries from block to block stay inside the call. -/
import proofs.«415099_j43559558316604_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Vin6 : Dev nD → Valuation τ sig (Elt F) := V11 m (o10 m)
abbrev Vprog6 : Dev nD → Valuation τ sig (Elt F) := V11 m (outs m)
abbrev Vout6 : Dev nD → Valuation τ sig (Elt F) := V12 m (outs m)
theorem Vin6_eq (c : Dev nD) : Vprog6 m c = Vin6 m c := V11_outs m c

theorem Vout6_of (c : Dev nD) (r : Ref sig .tc) (h : r ∉ ([main_v58] : List (Ref sig .tc))) :
    Vout6 m c r = Vin6 m c r := (V12_of m (outs m) c r h).trans (congrFun (Vin6_eq m c) r)

theorem Vout6_fst (c : Dev nD) : Vout6 m c main_v58 = (dat6 (rd (Vin6 m)) c).arrAt 5 cfg6.N := by
  show Function.update (Vprog6 m c) main_v58 (outs m 12 main_v58 c) main_v58 = _
  rw [Function.update_self, outs_12]
  exact Pipeline.withArrays_arr spec6 launch6.win.arr_inj c _ _ 5

-- At exit an input array holds what it held and an output array what the grid points wrote.
set_option maxHeartbeats 4000000 in
theorem hF6 (c : Dev nD) (w : Fin cfg6.W) :
    (pdats m 6 c).arrAt w cfg6.N = rd (Vout6 m) c (Pipeline.arrRef spec6 w) := by
  show (dat6 (rd (Vin6 m)) c).arrAt w cfg6.N = _
  match w with
  | ⟨0, _⟩ => exact ((dat6 (rd (Vin6 m)) c).arrAt_in 0 rfl _).trans ((A_eq6 (rd (Vin6 m)) c 0).trans (Vout6_of m c _ (by decide)).symm)
  | ⟨1, _⟩ => exact ((dat6 (rd (Vin6 m)) c).arrAt_in 1 rfl _).trans ((A_eq6 (rd (Vin6 m)) c 1).trans (Vout6_of m c _ (by decide)).symm)
  | ⟨2, _⟩ => exact ((dat6 (rd (Vin6 m)) c).arrAt_in 2 rfl _).trans ((A_eq6 (rd (Vin6 m)) c 2).trans (Vout6_of m c _ (by decide)).symm)
  | ⟨3, _⟩ => exact ((dat6 (rd (Vin6 m)) c).arrAt_in 3 rfl _).trans ((A_eq6 (rd (Vin6 m)) c 3).trans (Vout6_of m c _ (by decide)).symm)
  | ⟨4, _⟩ => exact ((dat6 (rd (Vin6 m)) c).arrAt_in 4 rfl _).trans ((A_eq6 (rd (Vin6 m)) c 4).trans (Vout6_of m c _ (by decide)).symm)
  | ⟨5, _⟩ => exact (Vout6_fst m c).symm

theorem hrest6 (c : Dev nD) : ∀ b, b ∉ Finset.univ.image (Pipeline.arrRef spec6) → rd (Vout6 m) c b = rd (Vin6 m) c b := fun b hb =>
  Vout6_of m c b fun hmem => by
    rcases List.mem_cons.mp hmem with rfl | hmem
    · exact hb (Finset.mem_image.mpr ⟨5, Finset.mem_univ _, rfl⟩)
    · exact absurd hmem (List.not_mem_nil)

set_option backward.isDefEq.respectTransparency.types false in
def reg6 : Pipeline.RegionSeg (pcfgs (F := F)) adm (pdats m) () defs₀ Variants.none L lv 6 :=
  regSeg m 6 launch6 (Vin6 m) (Vout6 m) (fun c => body_obligation6 (rd (Vin6 m)) c) (fun c => (pdats m 6 c).share_full fun _ => rfl)
    (fun _ _ => rfl) (fun _ _ => rfl) (fun _ => rfl) (hin6 (rd (Vin6 m))) (hout6 (rd (Vin6 m))) (hF6 m) (hrest6 m)

theorem hpre6 (c : Dev nD) : iprop(StableHlo.held (c : Thread nD τ) (Pipeline.ucRefs τ sig) (Vprog6 m c) ∗ E 6 c) ⊢ (reg6 m).pre c := by
  rw [Vin6_eq m c]; exact .rfl
theorem hpost6 (c : Dev nD) : (reg6 m).post c ⊢ iprop(StableHlo.held (c : Thread nD τ) (Pipeline.ucRefs τ sig) (Vout6 m c) ∗ E 7 c) := .rfl

end Cert.KernelIdeal.Hand

end
-- ==== Proof.KI.Run.lean ====
/- The whole program's run: the seven calls as segments among the stretches of host operations. Every weakly fair
   execution from counters at zero ends, nothing faulting, with the arguments as launched and the result at what the
   last host stretch computes from the seventh call's output. -/
import proofs.«415099_j43559558316604_1_alg».proof.Proof.KI.Reg0
import proofs.«415099_j43559558316604_1_alg».proof.Proof.KI.Reg1
import proofs.«415099_j43559558316604_1_alg».proof.Proof.KI.Reg2
import proofs.«415099_j43559558316604_1_alg».proof.Proof.KI.Reg3
import proofs.«415099_j43559558316604_1_alg».proof.Proof.KI.Reg4
import proofs.«415099_j43559558316604_1_alg».proof.Proof.KI.Reg5
import proofs.«415099_j43559558316604_1_alg».proof.Proof.KI.Reg6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

abbrev u₀ : UR sig nD τ := initOf (Pipeline.cells cfgs cellOf_inj) (Pipeline.launchToks cfgs cellOf_inj)

theorem hu₀ : (ownU (u₀) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE7 (c : Dev nD) : E (F := F) 7 c ⊢ (iprop(∃ W, owes (c : Thread nD τ) (0 : CellTallies nD τ sig Unit) W) : sProp 𝕄) := by
  iintro ⟨-, H⟩; iexact H

-- The segments chained: each is entered at what the one before leaves; the result and the arguments are read off the last contents.
set_option backward.isDefEq.respectTransparency.types false in
theorem run_result : θ_run defs (onTc (τ := τ) (main (F := F))) ⟨m, fun _ => 0, ρ⟩ (fun r => ∀ c : Dev nD,
      r.2.mem ((c.tc : Thread nD τ).loc main_v59) = V13 m (outs m) c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ Variants.none L lv m ρ main
    (segs m (outs m) Variants.none L lv E () (pdats m) (reg0 m) (reg1 m) (reg2 m) (reg3 m) (reg4 m) (reg5 m) (reg6 m))
    (fun c Q => by
      rewrite [main_chain c, Seg.run_eq_chain,
        show (segs m (outs m) Variants.none L lv E () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, hpre0 m c, hpost0 m c, hpre1 m c, (hpost1 m c).trans (hpre2 m c), hpost2 m c, hpre3 m c, (hpost3 m c).trans (hpre4 m c), hpost4 m c, hpre5 m c, hpost5 m c, hpre6 m c, hpost6 m c, sep_mono .rfl (hE7 c)⟩)
    (hinit := ?_) (QY := fun c s => s.mem ((c.tc : Thread nD τ).loc main_v59) = V13 m (outs m) c main_v59
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  ·
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v59) (Finset.mem_filter.mpr ⟨StableHlo.devRef_mem_tcRefs main_v59, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c),
        (h (Proc.devRef .tc main_arg10) (Finset.mem_filter.mpr ⟨StableHlo.devRef_mem_tcRefs main_arg10, by decide⟩)).trans (V13_main_arg10 m (outs m) c)⟩
    · iexact HSI

-- The frame: the run with the result dropped.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.KernelIdeal.Hand

end
-- ==== Proof.RefLayer.lean ====
/- The reference's host operations composed as functions of whole arrays and read at an index. -/
import proofs.«415099_j43559558316604_1_alg».proof.Proof.Gen.ReferenceIdeal
import proofs.«415099_j43559558316604_1_alg».proof.Proof.LibGatherScatter
import proofs.«415099_j43559558316604_1_alg».proof.Proof.LibPlainDot
import proofs.«415099_j43559558316604_1_alg».proof.Proof.LibKeepdimsColumn
import proofs.«415099_j43559558316604_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Idealize.ShloMosaic.GatherScatter Idealize.ShloMosaic.KeepdimsColumn

section Layout
variable {α : Type}

theorem columns_apply {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ ![0, 1] h v (ix2 p c) = v (ix2 p 0) :=
  broadcastInDim_apply _ h v (ix2 p c) (ix2 p 0) fun x => by
    match x with
    | ⟨0, _⟩ =>
      show p.val = if a = 1 then 0 else p.val
      split
      · have := p.isLt; omega
      · rfl
    | ⟨1, _⟩ => rfl

theorem rows_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ ![0, 1] h v (ix2 p c) = v (ix2 0 c) :=
  broadcastInDim_apply _ h v (ix2 p c) (ix2 0 c) fun x => by
    match x with
    | ⟨0, _⟩ => rfl
    | ⟨1, _⟩ =>
      show c.val = if b = 1 then 0 else c.val
      split
      · have := c.isLt; omega
      · rfl

theorem fill_apply {r : ℕ} {sz : Fin r → ℕ}
    (h : (⟨0, ![]⟩ : Shape).BroadcastsInDim ⟨r, sz⟩ (![] : Fin 0 → Fin r))
    (v : (⟨0, ![]⟩ : Shape).Idx → α) (i : (⟨r, sz⟩ : Shape).Idx) : broadcastInDim ⟨r, sz⟩ ![] h v i = v ix0 :=
  broadcastInDim_apply _ h v i ix0 fun x => x.elim0

end Layout

def srcRow (ei : IVec S2x1250000 32) : IVec S1250000 32 :=
  shapeCast _ (extractStridedSlice S1x1250000 ![0, 0] ei slices_S2x1250000_S1x1250000_0_0) shapeCasts_S1x1250000_S1250000

def dstRow (ei : IVec S2x1250000 32) : IVec S1250000 32 :=
  shapeCast _ (extractStridedSlice S1x1250000 ![1, 0] ei slices_S2x1250000_S1x1250000_1_0) shapeCasts_S1x1250000_S1250000

theorem srcRow_apply (ei : IVec S2x1250000 32) (e : Fin 1250000) : srcRow ei (ix1 e) = ei (ix2 0 e) := by
  unfold srcRow
  rw [shapeCast_1a_a_apply _ shapeCasts_S1x1250000_S1250000 e]
  exact extractStridedSlice_apply ![0, 0] ei slices_S2x1250000_S1x1250000_0_0 (ix2 0 e) (ix2 0 e) fun a => by
    match a with
    | ⟨0, _⟩ => rfl
    | ⟨1, _⟩ => show e.val = 0 + e.val; omega

theorem dstRow_apply (ei : IVec S2x1250000 32) (e : Fin 1250000) : dstRow ei (ix1 e) = ei (ix2 1 e) := by
  unfold dstRow
  rw [shapeCast_1a_a_apply _ shapeCasts_S1x1250000_S1250000 e]
  exact extractStridedSlice_apply ![1, 0] ei slices_S2x1250000_S1x1250000_1_0 (ix2 0 e) (ix2 1 e) fun a => by
    match a with
    | ⟨0, _⟩ => rfl
    | ⟨1, _⟩ => show e.val = 0 + e.val; omega

def wrapVec (v : IVec S1250000 32) : IVec S1250000 32 :=
  select (cmpi .slt v (broadcastInDim S1250000 ![] bcast_S_S1250000 (constantI S_ 32 0#32)))
    (addi v (broadcastInDim S1250000 ![] bcast_S_S1250000 (constantI S_ 32 50000#32))) v

theorem wrapVec_apply (v : IVec S1250000 32) (e : Fin 1250000) : wrapVec v (ix1 e) = Cert.Spec.wrap (v (ix1 e)) := by
  unfold wrapVec Cert.Spec.wrap
  rw [select_apply]
  show Scalar.select (IntOp.cmpi .slt (v (ix1 e)) (broadcastInDim S1250000 ![] bcast_S_S1250000 (constantI S_ 32 0#32) (ix1 e)))
      (IntOp.addi (v (ix1 e)) (broadcastInDim S1250000 ![] bcast_S_S1250000 (constantI S_ 32 50000#32) (ix1 e))) (v (ix1 e)) = _
  rw [fill_apply, fill_apply]
  rfl

theorem hostDivf_apply {s : Shape} {φ : FTy} (x y : FVec Ideal s φ) (i : s.Idx) :
    Host.divf x y i = Ideal.div (x i) (y i) := rfl

def zerosN : FVec Ideal S50000 .f32 := broadcastInDim S50000 ![] bcast_S_S50000 (constant S_ .f32 0x00000000#32)
def onesN : FVec Ideal S50000 .f32 := broadcastInDim S50000 ![] bcast_S_S50000 (constant S_ .f32 0x3F800000#32)
def onesE : FVec Ideal S1250000 .f32 := broadcastInDim S1250000 ![] bcast_S_S1250000 (constant S_ .f32 0x3F800000#32)
def zerosNC : FVec Ideal S50000x64 .f32 := broadcastInDim S50000x64 ![] bcast_S_S50000x64 (constant S_ .f32 0x00000000#32)
def zerosG : FVec Ideal S64 .f32 := broadcastInDim S64 ![] bcast_S_S64 (constant S_ .f32 0x00000000#32)
def onesG : FVec Ideal S64 .f32 := broadcastInDim S64 ![] bcast_S_S64 (constant S_ .f32 0x3F800000#32)
def zerosGC : FVec Ideal S64x64 .f32 := broadcastInDim S64x64 ![] bcast_S_S64x64 (constant S_ .f32 0x00000000#32)

theorem zerosN_apply (i : S50000.Idx) : zerosN i = Cert.Spec.Z := fill_apply _ _ i
theorem onesN_apply (i : S50000.Idx) : onesN i = Cert.Spec.O := fill_apply _ _ i
theorem onesE_apply (i : S1250000.Idx) : onesE i = Cert.Spec.O := fill_apply _ _ i
theorem zerosNC_apply (i : S50000x64.Idx) : zerosNC i = Cert.Spec.Z := fill_apply _ _ i
theorem zerosG_apply (i : S64.Idx) : zerosG i = Cert.Spec.Z := fill_apply _ _ i
theorem onesG_apply (i : S64.Idx) : onesG i = Cert.Spec.O := fill_apply _ _ i
theorem zerosGC_apply (i : S64x64.Idx) : zerosGC i = Cert.Spec.Z := fill_apply _ _ i

theorem scatterVecN_eq : scatter_S50000_S1250000x1_S1250000_n_0_0_1
    = vecScatterDims 50000 1250000 scatter_S50000_S1250000x1_S1250000_n_0_0_1_wf := rfl
theorem gatherVecN_eq : gather_S50000_S1250000x1_S1250000_n_0_n_n_0_1_1
    = vecGatherDims 50000 1250000 gather_S50000_S1250000x1_S1250000_n_0_n_n_0_1_1_wf := rfl
theorem gatherRowN_eq : gather_S50000x64_S1250000x1_S1250000x64_1_0_n_n_0_1_164
    = rowGatherDims 50000 64 1250000 gather_S50000x64_S1250000x1_S1250000x64_1_0_n_n_0_1_164_wf := rfl
theorem scatterRowN_eq : scatter_S50000x64_S1250000x1_S1250000x64_1_0_0_1
    = rowScatterDims 50000 64 1250000 scatter_S50000x64_S1250000x1_S1250000x64_1_0_0_1_wf := rfl
theorem scatterVecG_eq : scatter_S64_S50000x1_S50000_n_0_0_1
    = vecScatterDims 64 50000 scatter_S64_S50000x1_S50000_n_0_0_1_wf := rfl
theorem scatterRowG_eq : scatter_S64x64_S50000x1_S50000x64_1_0_0_1
    = rowScatterDims 64 64 50000 scatter_S64x64_S50000x1_S50000x64_1_0_0_1_wf := rfl
theorem dotN_eq : dot_S50000x64_S64x64_S50000x64_1_0_0_1_n_n = DotDims.plain 50000 64 64 := rfl
theorem dotG_eq : dot_S64x64_S64x1_S64x1_1_0_0_1_n_n = DotDims.plain 64 64 1 := rfl

abbrev colE {α : Type} (v : S1250000.Idx → α) : S1250000x1.Idx → α :=
  broadcastInDim S1250000x1 ![0] bcast_S1250000_S1250000x1_0 v

def dinvVec (ei : IVec S2x1250000 32) : FVec Ideal S50000 .f32 :=
  Host.rsqrt (addf (Host.scatterAdd scatter_S50000_S1250000x1_S1250000_n_0_0_1 zerosN (colE (dstRow ei)) onesE) onesN)

theorem dinvVec_apply (ei : IVec S2x1250000 32) (n : Fin 50000) :
    dinvVec ei (ix1 n) = Cert.Spec.dinv (fun e => ei (ix2 1 e)) n := by
  unfold dinvVec Cert.Spec.dinv Cert.Spec.deg Cert.Spec.into
  rw [hostRsqrt_apply, addf_apply, scatterVecN_eq, vecScatterAdd_apply]
  simp only [zerosN_apply, onesN_apply, onesE_apply, column_apply, dstRow_apply]

def linMat (h : FVec Ideal S50000x64 .f32) (W : FVec Ideal S64x64 .f32) : FVec Ideal S50000x64 .f32 :=
  Host.dotGeneral dot_S50000x64_S64x64_S50000x64_1_0_0_1_n_n none h W

theorem linMat_apply (h : FVec Ideal S50000x64 .f32) (W : FVec Ideal S64x64 .f32) (n : Fin 50000) (j : Fin 64) :
    linMat h W (ix2 n j) = Cert.Spec.lin (fun n k => h (ix2 n k)) (fun k j => W (ix2 k j)) n j := by
  unfold linMat Cert.Spec.lin
  rw [dotN_eq]
  exact PlainDot.dotGeneral_apply 50000 64 64 none h W n j

def normVec (ei : IVec S2x1250000 32) : FVec Ideal S1250000 .f32 :=
  mulf (Host.gather gather_S50000_S1250000x1_S1250000_n_0_n_n_0_1_1 (dinvVec ei) (colE (wrapVec (srcRow ei))))
    (Host.gather gather_S50000_S1250000x1_S1250000_n_0_n_n_0_1_1 (dinvVec ei) (colE (wrapVec (dstRow ei))))

theorem normVec_apply (ei : IVec S2x1250000 32) (e : Fin 1250000) :
    normVec ei (ix1 e)
      = Cert.Spec.dinv (fun e => ei (ix2 1 e)) (Cert.Spec.node (Cert.Spec.wrap (ei (ix2 0 e))))
        * Cert.Spec.dinv (fun e => ei (ix2 1 e)) (Cert.Spec.node (Cert.Spec.wrap (ei (ix2 1 e)))) := by
  unfold normVec
  rw [mulf_apply, gatherVecN_eq, vecGather_apply (by decide), vecGather_apply (by decide), dinvVec_apply, dinvVec_apply]
  simp only [column_apply, wrapVec_apply, srcRow_apply, dstRow_apply]
  rfl

def msgMat (h : FVec Ideal S50000x64 .f32) (W : FVec Ideal S64x64 .f32) (ei : IVec S2x1250000 32) :
    FVec Ideal S1250000x64 .f32 :=
  mulf (Host.gather gather_S50000x64_S1250000x1_S1250000x64_1_0_n_n_0_1_164 (linMat h W) (colE (wrapVec (srcRow ei))))
    (broadcastInDim S1250000x64 ![0, 1] bcast_S1250000x1_S1250000x64_0_1 (colE (normVec ei)))

theorem msgMat_apply (h : FVec Ideal S50000x64 .f32) (W : FVec Ideal S64x64 .f32) (ei : IVec S2x1250000 32)
    (e : Fin 1250000) (j : Fin 64) :
    msgMat h W ei (ix2 e j)
      = Cert.Spec.lin (fun n k => h (ix2 n k)) (fun k j => W (ix2 k j)) (Cert.Spec.node (Cert.Spec.wrap (ei (ix2 0 e)))) j
        * (Cert.Spec.dinv (fun e => ei (ix2 1 e)) (Cert.Spec.node (Cert.Spec.wrap (ei (ix2 0 e))))
          * Cert.Spec.dinv (fun e => ei (ix2 1 e)) (Cert.Spec.node (Cert.Spec.wrap (ei (ix2 1 e))))) := by
  unfold msgMat
  rw [mulf_apply, gatherRowN_eq, rowGather_apply (by decide), columns_apply, linMat_apply]
  simp only [column_apply, wrapVec_apply, srcRow_apply, normVec_apply]
  rfl

def preMat (h : FVec Ideal S50000x64 .f32) (W : FVec Ideal S64x64 .f32) (b : FVec Ideal S64 .f32)
    (ei : IVec S2x1250000 32) : FVec Ideal S50000x64 .f32 :=
  addf (addf (Host.scatterAdd scatter_S50000x64_S1250000x1_S1250000x64_1_0_0_1 zerosNC (colE (dstRow ei)) (msgMat h W ei))
      (mulf (linMat h W) (broadcastInDim S50000x64 ![0, 1] bcast_S50000x1_S50000x64_0_1
        (broadcastInDim S50000x1 ![0] bcast_S50000_S50000x1_0 (mulf (dinvVec ei) (dinvVec ei))))))
    (broadcastInDim S50000x64 ![0, 1] bcast_S1x64_S50000x64_0_1 (broadcastInDim S1x64 ![1] bcast_S64_S1x64_1 b))

def refLayer (relu : Bool) (h : FVec Ideal S50000x64 .f32) (W : FVec Ideal S64x64 .f32) (b : FVec Ideal S64 .f32)
    (ei : IVec S2x1250000 32) : FVec Ideal S50000x64 .f32 :=
  match relu with
  | true => maximumf (preMat h W b ei) zerosNC
  | false => preMat h W b ei

theorem preMat_apply (h : FVec Ideal S50000x64 .f32) (W : FVec Ideal S64x64 .f32) (b : FVec Ideal S64 .f32)
    (ei : IVec S2x1250000 32) (n : Fin 50000) (j : Fin 64) :
    preMat h W b ei (ix2 n j)
      = Cert.Spec.layerR (fun e => ei (ix2 0 e)) (fun e => ei (ix2 1 e)) false
          (fun n k => h (ix2 n k)) (fun k j => W (ix2 k j)) (fun j => b (ix1 j)) n j := by
  unfold preMat Cert.Spec.layerR Cert.Spec.act Cert.Spec.into
  rw [addf_apply, addf_apply, mulf_apply, scatterRowN_eq, rowScatterAdd_apply, columns_apply, column_apply, mulf_apply,
    rows_apply, row_apply, dinvVec_apply, linMat_apply, zerosNC_apply]
  simp only [column_apply, dstRow_apply, msgMat_apply]
  rfl

theorem act_false (v : EReal) : Cert.Spec.act false v = v := rfl
theorem act_true (v : EReal) : Cert.Spec.act true v = max v Cert.Spec.Z := rfl

theorem refLayer_true (h : FVec Ideal S50000x64 .f32) (W : FVec Ideal S64x64 .f32) (b : FVec Ideal S64 .f32)
    (ei : IVec S2x1250000 32) : refLayer true h W b ei = maximumf (preMat h W b ei) zerosNC := rfl
theorem refLayer_false (h : FVec Ideal S50000x64 .f32) (W : FVec Ideal S64x64 .f32) (b : FVec Ideal S64 .f32)
    (ei : IVec S2x1250000 32) : refLayer false h W b ei = preMat h W b ei := rfl

theorem refLayer_apply (relu : Bool) (h : FVec Ideal S50000x64 .f32) (W : FVec Ideal S64x64 .f32) (b : FVec Ideal S64 .f32)
    (ei : IVec S2x1250000 32) (n : Fin 50000) (j : Fin 64) :
    refLayer relu h W b ei (ix2 n j)
      = Cert.Spec.layerR (fun e => ei (ix2 0 e)) (fun e => ei (ix2 1 e)) relu
          (fun n k => h (ix2 n k)) (fun k j => W (ix2 k j)) (fun j => b (ix1 j)) n j := by
  cases relu
  · rw [refLayer_false, preMat_apply]
  · rw [refLayer_true, maximumf_apply, preMat_apply, zerosNC_apply]
    unfold Cert.Spec.layerR
    rw [act_false, act_true]

abbrev colN {α : Type} (v : S50000.Idx → α) : S50000x1.Idx → α :=
  broadcastInDim S50000x1 ![0] bcast_S50000_S50000x1_0 v

def countVec (batch : IVec S50000 32) : FVec Ideal S64 .f32 :=
  maximumf (Host.scatterAdd scatter_S64_S50000x1_S50000_n_0_0_1 zerosG (colN batch) onesN) onesG

theorem countVec_apply (batch : IVec S50000 32) (g : Fin 64) :
    countVec batch (ix1 g) = max (Cert.Spec.counts (fun n => batch (ix1 n)) g) Cert.Spec.O := by
  unfold countVec Cert.Spec.counts Cert.Spec.members
  rw [maximumf_apply, scatterVecG_eq, vecScatterAdd_apply, zerosG_apply, onesG_apply]
  simp only [column_apply, onesN_apply]

def sumMat (H : FVec Ideal S50000x64 .f32) (batch : IVec S50000 32) : FVec Ideal S64x64 .f32 :=
  Host.scatterAdd scatter_S64x64_S50000x1_S50000x64_1_0_0_1 zerosGC (colN batch) H

theorem sumMat_apply (H : FVec Ideal S50000x64 .f32) (batch : IVec S50000 32) (g j : Fin 64) :
    sumMat H batch (ix2 g j) = Cert.Spec.Z + ∑ n ∈ Cert.Spec.members (fun n => batch (ix1 n)) g, H (ix2 n j) := by
  unfold sumMat Cert.Spec.members
  rw [scatterRowG_eq, rowScatterAdd_apply, zerosGC_apply]
  simp only [column_apply]

def poolVec (H : FVec Ideal S50000x64 .f32) (batch : IVec S50000 32) (Wp : FVec Ideal S64x1 .f32)
    (bp : FVec Ideal S1 .f32) : FVec Ideal S64 .f32 :=
  shapeCast _ (addf (Host.dotGeneral dot_S64x64_S64x1_S64x1_1_0_0_1_n_n none
      (Host.divf (sumMat H batch) (broadcastInDim S64x64 ![0, 1] bcast_S64x1_S64x64_0_1
        (broadcastInDim S64x1 ![0] bcast_S64_S64x1_0 (countVec batch))))
      Wp)
    (broadcastInDim S64x1 ![0, 1] bcast_S1x1_S64x1_0_1 (broadcastInDim S1x1 ![1] bcast_S1_S1x1_1 bp))) shapeCasts_S64x1_S64

theorem poolVec_apply (H : FVec Ideal S50000x64 .f32) (batch : IVec S50000 32) (Wp : FVec Ideal S64x1 .f32)
    (bp : FVec Ideal S1 .f32) (g : Fin 64) :
    poolVec H batch Wp bp (ix1 g)
      = Cert.Spec.poolR (fun n => batch (ix1 n)) (fun j => Wp (ix2 j 0)) (bp (ix1 0)) (fun n j => H (ix2 n j)) g := by
  unfold poolVec Cert.Spec.poolR
  rw [shapeCast_a1_a_apply, addf_apply, dotG_eq, PlainDot.dotGeneral_apply, rows_apply, row_apply]
  simp only [hostDivf_apply, columns_apply bcast_S64x1_S64x64_0_1, column_apply bcast_S64_S64x1_0, sumMat_apply, countVec_apply]

def refNet (x : FVec Ideal S50000x64 .f32) (ei : IVec S2x1250000 32) (batch : IVec S50000 32)
    (W0 : FVec Ideal S64x64 .f32) (b0 : FVec Ideal S64 .f32) (W1 : FVec Ideal S64x64 .f32) (b1 : FVec Ideal S64 .f32)
    (W2 : FVec Ideal S64x64 .f32) (b2 : FVec Ideal S64 .f32) (Wp : FVec Ideal S64x1 .f32) (bp : FVec Ideal S1 .f32) :
    FVec Ideal S64 .f32 :=
  poolVec (refLayer false (refLayer true (refLayer true x W0 b0 ei) W1 b1 ei) W2 b2 ei) batch Wp bp

theorem refNet_apply (x : FVec Ideal S50000x64 .f32) (ei : IVec S2x1250000 32) (batch : IVec S50000 32)
    (W0 : FVec Ideal S64x64 .f32) (b0 : FVec Ideal S64 .f32) (W1 : FVec Ideal S64x64 .f32) (b1 : FVec Ideal S64 .f32)
    (W2 : FVec Ideal S64x64 .f32) (b2 : FVec Ideal S64 .f32) (Wp : FVec Ideal S64x1 .f32) (bp : FVec Ideal S1 .f32)
    (g : Fin 64) :
    refNet x ei batch W0 b0 W1 b1 W2 b2 Wp bp (ix1 g)
      = Cert.Spec.resR (fun e => ei (ix2 0 e)) (fun e => ei (ix2 1 e)) (fun n => batch (ix1 n))
          (fun n k => x (ix2 n k)) (fun k j => W0 (ix2 k j)) (fun k j => W1 (ix2 k j)) (fun k j => W2 (ix2 k j))
          (fun j => b0 (ix1 j)) (fun j => b1 (ix1 j)) (fun j => b2 (ix1 j)) (fun j => Wp (ix2 j 0)) (bp (ix1 0)) g := by
  unfold refNet Cert.Spec.resR Cert.Spec.netR
  rw [poolVec_apply]
  simp only [refLayer_apply]

end Cert.ReferenceIdeal.RefValue

end
-- ==== Proof.RefSide.lean ====
/- The reference's result as a function of the arguments: its run ends with the result at the composed term of its
   host operations, which at graph g is the pooled head over the three layers. -/
import proofs.«415099_j43559558316604_1_alg».proof.Proof.Gen.ReferenceIdeal.Run
import proofs.«415099_j43559558316604_1_alg».proof.Proof.Spec
import proofs.«415099_j43559558316604_1_alg».proof.Proof.RefLayer

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

set_option maxRecDepth 8192 in
theorem res_out0_eq (m : (ℓ : Loc nD τ sig) → Buf (Elt Ideal) ℓ) (c : Dev nD) :
    Cert.ReferenceIdeal.Value.res_out0 (F := Ideal) m c
      = refNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  rfl

-- The reference's result at graph g is the members'-sum pooled head over the per-edge layers.
theorem res_out0_apply (m : (ℓ : Loc nD τ sig) → Buf (Elt Ideal) ℓ) (c : Dev nD) (g : Fin 64) :
    Cert.ReferenceIdeal.Value.res_out0 (F := Ideal) m c (ValueIdx.ix1 g)
      = Cert.Spec.resR
          (fun e => m ((c.tc : Thread nD τ).loc main_arg1) (ValueIdx.ix2 0 e))
          (fun e => m ((c.tc : Thread nD τ).loc main_arg1) (ValueIdx.ix2 1 e))
          (fun n => m ((c.tc : Thread nD τ).loc main_arg2) (ValueIdx.ix1 n))
          (fun n k => m ((c.tc : Thread nD τ).loc main_arg0) (ValueIdx.ix2 n k))
          (fun k j => m ((c.tc : Thread nD τ).loc main_arg3) (ValueIdx.ix2 k j))
          (fun k j => m ((c.tc : Thread nD τ).loc main_arg5) (ValueIdx.ix2 k j))
          (fun k j => m ((c.tc : Thread nD τ).loc main_arg7) (ValueIdx.ix2 k j))
          (fun j => m ((c.tc : Thread nD τ).loc main_arg4) (ValueIdx.ix1 j))
          (fun j => m ((c.tc : Thread nD τ).loc main_arg6) (ValueIdx.ix1 j))
          (fun j => m ((c.tc : Thread nD τ).loc main_arg8) (ValueIdx.ix1 j))
          (fun j => m ((c.tc : Thread nD τ).loc main_arg9) (ValueIdx.ix2 j 0))
          (m ((c.tc : Thread nD τ).loc main_arg10) (ValueIdx.ix1 0))
          g :=
  (congrFun (res_out0_eq m c) (ValueIdx.ix1 g)).trans
    (refNet_apply (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) g)

end Cert.ReferenceIdeal.RefValue

end
-- ==== Proof.SpecLayer.lean ====
/- The two ways of scaling a layer's messages agree: dinv n is a nonnegative real, and multiplication by a nonnegative
   real distributes over a finite sum of extended reals. -/
import proofs.«415099_j43559558316604_1_alg».proof.Proof.Spec
import Idealize.ShloMosaic.PureOps.Ideal.Laws
import Idealize.ShloMosaic.Lib.IdealHost
import Mathlib.Data.EReal.Operations

noncomputable section

open scoped BigOperators

namespace Cert.Spec

open Idealize.ShloMosaic

theorem Z_eq : (Z : EReal) = 0 := Ideal.ofBits_zero_f32

theorem O_eq : (O : EReal) = 1 := Ideal.ofBits_one_f32

theorem sum_one_eq_card {ι : Type} (s : Finset ι) : (∑ _e ∈ s, (1 : EReal)) = ((s.card : ℝ) : EReal) := by
  classical
  induction s using Finset.induction_on with
  | empty => simp
  | insert i s hi ih =>
    rw [Finset.sum_insert hi, ih, Finset.card_insert_of_notMem hi, Nat.cast_succ, EReal.coe_add, EReal.coe_one,
      add_comm]

-- A nonnegative real factor distributes over a finite sum of extended reals.
theorem mul_sum_of_nonneg_of_ne_top {ι : Type} (s : Finset ι) {c : EReal} (hc : 0 ≤ c) (hc' : c ≠ ⊤)
    (a : ι → EReal) : c * ∑ e ∈ s, a e = ∑ e ∈ s, c * a e := by
  classical
  induction s using Finset.induction_on with
  | empty => simp
  | insert i s hi ih =>
    rw [Finset.sum_insert hi, Finset.sum_insert hi, EReal.left_distrib_of_nonneg_of_ne_top hc hc', ih]

variable (src dst : Fin 1250000 → BitVec 32)

theorem deg_eq (n : Fin 50000) : deg dst n = ((((into dst n).card + 1 : ℕ) : ℝ) : EReal) := by
  unfold deg
  rw [Z_eq, O_eq, zero_add, sum_one_eq_card, Nat.cast_succ, EReal.coe_add, EReal.coe_one]

theorem dinv_eq (n : Fin 50000) :
    dinv dst n = (((Real.sqrt (((into dst n).card + 1 : ℕ) : ℝ))⁻¹ : ℝ) : EReal) := by
  unfold dinv
  rw [deg_eq, Ideal.rsqrt_coe]
  have hpos : (0 : ℝ) < (((into dst n).card + 1 : ℕ) : ℝ) := by exact_mod_cast Nat.succ_pos _
  rw [if_neg (not_lt.mpr hpos.le), if_neg hpos.ne']

theorem dinv_nonneg (n : Fin 50000) : 0 ≤ dinv dst n := by
  rw [dinv_eq]
  exact EReal.coe_nonneg.mpr (inv_nonneg.mpr (Real.sqrt_nonneg _))

theorem dinv_ne_top (n : Fin 50000) : dinv dst n ≠ ⊤ := by
  rw [dinv_eq]
  exact EReal.coe_ne_top _

theorem node_wrap_of_mem_into {dst : Fin 1250000 → BitVec 32} {n : Fin 50000} {e : Fin 1250000}
    (h : e ∈ into dst n) : node (wrap (dst e)) = n := by
  have hv : (dst e).toInt = (n.val : Int) := by
    have := h
    unfold into at this
    exact (Finset.mem_filter.mp this).2
  have hn : n.val < 50000 := n.isLt
  have hslt : (dst e).slt 0#32 = false := by
    rw [BitVec.slt, hv]
    simp
  have hw : wrap (dst e) = dst e := by
    unfold wrap IntOp.cmpi Scalar.select
    simp [hslt]
  rw [hw]
  apply Fin.ext
  show min (dst e).toInt.toNat (50000 - 1) = n.val
  rw [hv]
  simp only [Int.toNat_natCast]
  omega

theorem scaled_sum_eq (n : Fin 50000) (f : Fin 1250000 → EReal) (g : Fin 1250000 → Fin 50000) :
    dinv dst n * (Z + ∑ e ∈ into dst n, f e * dinv dst (g e))
      = Z + ∑ e ∈ into dst n, f e * (dinv dst (g e) * dinv dst (node (wrap (dst e)))) := by
  rw [Z_eq, zero_add, zero_add, mul_sum_of_nonneg_of_ne_top _ (dinv_nonneg dst n) (dinv_ne_top dst n)]
  refine Finset.sum_congr rfl fun e he => ?_
  rw [node_wrap_of_mem_into he, mul_comm, mul_assoc]

-- Scaling at the source and then at the target is scaling each message by both factors: dinv of the target comes out of the sum.
theorem layerK_eq_layerR (relu : Bool) (h : Fin 50000 → Fin 64 → EReal) (W : Fin 64 → Fin 64 → EReal)
    (b : Fin 64 → EReal) : layerK src dst relu h W b = layerR src dst relu h W b := by
  funext n j
  unfold layerK layerR
  rw [scaled_sum_eq dst n (fun e => lin h W (node (wrap (src e))) j) (fun e => node (wrap (src e)))]

theorem netK_eq_netR (x : Fin 50000 → Fin 64 → EReal) (W0 W1 W2 : Fin 64 → Fin 64 → EReal)
    (b0 b1 b2 : Fin 64 → EReal) :
    netK src dst x W0 W1 W2 b0 b1 b2 = netR src dst x W0 W1 W2 b0 b1 b2 := by
  unfold netK netR
  rw [layerK_eq_layerR, layerK_eq_layerR, layerK_eq_layerR]

end Cert.Spec

end
-- ==== Proof.SpecPool.lean ====
/- The two ways of summing a graph's rows agree: the sum over ten blocks of 5000 nodes is the sum over all nodes. -/
import proofs.«415099_j43559558316604_1_alg».proof.Proof.Spec
import Idealize.ShloMosaic.PureOps.Ideal.Laws
import Idealize.ShloMosaic.Lib.IdealHost
import Mathlib.Algebra.BigOperators.Group.Finset.Basic
import Mathlib.Data.Fintype.BigOperators

noncomputable section

open scoped BigOperators

namespace Cert.Spec

open Idealize.ShloMosaic

theorem toInt_ofNat_small (g : Fin 64) : (BitVec.ofNat 32 g.val).toInt = (g.val : Int) := by
  have hg := g.isLt
  rw [BitVec.toInt_eq_toNat_cond, BitVec.toNat_ofNat]
  have h1 : g.val % 2 ^ 32 = g.val := Nat.mod_eq_of_lt (by omega)
  rw [h1, if_pos (by omega)]

theorem eq_ofNat_iff (v : BitVec 32) (g : Fin 64) : v = BitVec.ofNat 32 g.val ↔ v.toInt = (g.val : Int) := by
  constructor
  · intro h; rw [h, toInt_ofNat_small]
  · intro h; apply BitVec.eq_of_toInt_eq; rw [h, toInt_ofNat_small]

variable (batch : Fin 50000 → BitVec 32)

theorem onehot_eq (n : Fin 50000) (g : Fin 64) :
    onehot batch n g = if (batch n).toInt = (g.val : Int) then 1 else 0 := by
  unfold onehot
  show (((((IntOp.cmpi .eq (batch n) (BitVec.ofNat 32 g.val)).setWidth 32).toInt : ℝ)) : EReal) = _
  by_cases h : (batch n).toInt = (g.val : Int)
  · have hv : batch n = BitVec.ofNat 32 g.val := (eq_ofNat_iff _ _).mpr h
    rw [if_pos h]
    have : IntOp.cmpi .eq (batch n) (BitVec.ofNat 32 g.val) = 1#1 := by
      simp [IntOp.cmpi, hv]
    rw [this]
    norm_num
  · have hv : batch n ≠ BitVec.ofNat 32 g.val := fun e => h ((eq_ofNat_iff _ _).mp e)
    rw [if_neg h]
    have hb : (batch n == BitVec.ofNat 32 g.val) = false := beq_eq_false_iff_ne.mpr hv
    have : IntOp.cmpi .eq (batch n) (BitVec.ofNat 32 g.val) = 0#1 := by
      simp [IntOp.cmpi, hb]
    rw [this]
    norm_num

def tile : Fin 10 × Fin 5000 ≃ Fin 50000 where
  toFun x := row x.1 x.2
  invFun n := (⟨n.val / 5000, by omega⟩, ⟨n.val % 5000, by omega⟩)
  left_inv := by
    rintro ⟨t, p⟩
    ext
    · show (5000 * t.val + p.val) / 5000 = t.val
      omega
    · show (5000 * t.val + p.val) % 5000 = p.val
      omega
  right_inv := by
    intro n
    ext
    show 5000 * (n.val / 5000) + n.val % 5000 = n.val
    omega

theorem sum_blocks (F : Fin 50000 → EReal) : ∑ t : Fin 10, ∑ p : Fin 5000, F (row t p) = ∑ n : Fin 50000, F n := by
  rw [← Fintype.sum_prod_type']
  exact Equiv.sum_comp tile F

section
variable (h : Fin 50000 → Fin 64 → EReal)

theorem blockSum_eq (t : Fin 10) (g j : Fin 64) :
    blockSum batch h t g j
      = ∑ p : Fin 5000, if (batch (row t p)).toInt = (g.val : Int) then h (row t p) j else 0 := by
  unfold blockSum
  refine Finset.sum_congr rfl fun p _ => ?_
  rw [onehot_eq]
  split_ifs
  · rw [one_mul]
  · rw [zero_mul]

theorem accK_blocks (k : ℕ) (hk : k ≤ 10) (g j : Fin 64) :
    accK batch h k g j = Z + ∑ t : Fin 10, if t.val < k then blockSum batch h t g j else 0 := by
  induction k with
  | zero => simp [accK]
  | succ k ih =>
    have hk' : k < 10 := by omega
    have hstep : accK batch h (k + 1) g j = accK batch h k g j + blockSum batch h ⟨k, hk'⟩ g j := by
      rw [accK]; exact dif_pos hk'
    rw [hstep, ih (by omega), add_assoc]
    have hsplit : ∀ t : Fin 10, (if t.val < k + 1 then blockSum batch h t g j else 0)
        = (if t.val < k then blockSum batch h t g j else 0)
          + (if t = ⟨k, hk'⟩ then blockSum batch h t g j else 0) := by
      intro t
      by_cases h1 : t.val < k
      · have h2 : t ≠ ⟨k, hk'⟩ := fun e => by rw [e] at h1; exact lt_irrefl _ h1
        rw [if_pos h1, if_pos (by omega), if_neg h2, add_zero]
      · by_cases h2 : t = ⟨k, hk'⟩
        · rw [if_neg h1, if_pos h2, if_pos (by rw [h2]; exact Nat.lt_succ_self k), zero_add]
        · have h3 : ¬ t.val < k + 1 := fun h3 => h2 (Fin.ext (by show t.val = k; omega))
          rw [if_neg h1, if_neg h2, if_neg h3, add_zero]
    rw [Finset.sum_congr rfl fun t _ => hsplit t, Finset.sum_add_distrib, Finset.sum_ite_eq',
      if_pos (Finset.mem_univ _)]

theorem accK_ten (g j : Fin 64) : accK batch h 10 g j = Z + ∑ n ∈ members batch g, h n j := by
  rw [accK_blocks batch h 10 le_rfl]
  have h10 : ∀ t : Fin 10, (if t.val < 10 then blockSum batch h t g j else 0) = blockSum batch h t g j :=
    fun t => if_pos t.isLt
  rw [Finset.sum_congr rfl fun t _ => h10 t, Finset.sum_congr rfl fun t _ => blockSum_eq batch h t g j]
  rw [sum_blocks (fun n => if (batch n).toInt = (g.val : Int) then h n j else 0)]
  unfold members
  rw [Finset.sum_filter]

end

-- The block sums accumulated over the ten blocks are the sum over all nodes of the graph.
theorem poolK_eq_poolR (Wp : Fin 64 → EReal) (bp : EReal) (h : Fin 50000 → Fin 64 → EReal) :
    poolK batch Wp bp h = poolR batch Wp bp h := by
  funext g
  unfold poolK poolR
  simp only [accK_ten]

end Cert.Spec

end
-- ==== Proof.Assemble.lean ====
/- The reference's frame, the agreement of the two results as functions of the arguments, and from these the
   equivalence claim, given the kernel program's result read at a graph. -/
import proofs.«415099_j43559558316604_1_alg».proof.Defs
import proofs.«415099_j43559558316604_1_alg».proof.Proof.Gen.KernelIdeal
import proofs.«415099_j43559558316604_1_alg».proof.Proof.Gen.ReferenceIdeal
import proofs.«415099_j43559558316604_1_alg».proof.Proof.Gen.Pre_finite_inputs
import proofs.«415099_j43559558316604_1_alg».proof.Proof.KI.Run
import proofs.«415099_j43559558316604_1_alg».proof.Proof.RefSide
import proofs.«415099_j43559558316604_1_alg».proof.Proof.SpecLayer
import proofs.«415099_j43559558316604_1_alg».proof.Proof.SpecPool

noncomputable section

namespace Cert.Proof.Assemble

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

-- Layer by layer, then the pooled head: the two results are one function of the arguments.
theorem spec_eq (src dst : Fin 1250000 → BitVec 32) (batch : Fin 50000 → BitVec 32) (x : Fin 50000 → Fin 64 → EReal)
    (W0 W1 W2 : Fin 64 → Fin 64 → EReal) (b0 b1 b2 : Fin 64 → EReal) (Wp : Fin 64 → EReal) (bp : EReal) (g : Fin 64) :
    Cert.Spec.resK src dst batch x W0 W1 W2 b0 b1 b2 Wp bp g = Cert.Spec.resR src dst batch x W0 W1 W2 b0 b1 b2 Wp bp g := by
  unfold Cert.Spec.resK Cert.Spec.resR
  rw [Cert.Spec.netK_eq_netR, Cert.Spec.poolK_eq_poolR]

-- Both programs run from agreeing arguments; the reference's result at g is resR, the kernel program's resK, and these agree.
theorem algebraic_of
    (hres : ∀ (m : (ℓ : Loc Cert.KernelIdeal.nD Cert.KernelIdeal.τ Cert.KernelIdeal.sig) → Buf (Elt Ideal) ℓ) (c : Dev Cert.KernelIdeal.nD) (g : Fin 64),
        Cert.KernelIdeal.Gen.V13 m (Cert.KernelIdeal.Hand.outs m) c Cert.KernelIdeal.main_v59 (ValueIdx.ix1 g)
          = Cert.Spec.resK
            (fun e => m ((c.tc : Thread Cert.KernelIdeal.nD Cert.KernelIdeal.τ).loc Cert.KernelIdeal.main_arg1) (ValueIdx.ix2 0 e))
            (fun e => m ((c.tc : Thread Cert.KernelIdeal.nD Cert.KernelIdeal.τ).loc Cert.KernelIdeal.main_arg1) (ValueIdx.ix2 1 e))
            (fun n => m ((c.tc : Thread Cert.KernelIdeal.nD Cert.KernelIdeal.τ).loc Cert.KernelIdeal.main_arg2) (ValueIdx.ix1 n))
            (fun n k => m ((c.tc : Thread Cert.KernelIdeal.nD Cert.KernelIdeal.τ).loc Cert.KernelIdeal.main_arg0) (ValueIdx.ix2 n k))
            (fun k j => m ((c.tc : Thread Cert.KernelIdeal.nD Cert.KernelIdeal.τ).loc Cert.KernelIdeal.main_arg3) (ValueIdx.ix2 k j))
            (fun k j => m ((c.tc : Thread Cert.KernelIdeal.nD Cert.KernelIdeal.τ).loc Cert.KernelIdeal.main_arg5) (ValueIdx.ix2 k j))
            (fun k j => m ((c.tc : Thread Cert.KernelIdeal.nD Cert.KernelIdeal.τ).loc Cert.KernelIdeal.main_arg7) (ValueIdx.ix2 k j))
            (fun j => m ((c.tc : Thread Cert.KernelIdeal.nD Cert.KernelIdeal.τ).loc Cert.KernelIdeal.main_arg4) (ValueIdx.ix1 j))
            (fun j => m ((c.tc : Thread Cert.KernelIdeal.nD Cert.KernelIdeal.τ).loc Cert.KernelIdeal.main_arg6) (ValueIdx.ix1 j))
            (fun j => m ((c.tc : Thread Cert.KernelIdeal.nD Cert.KernelIdeal.τ).loc Cert.KernelIdeal.main_arg8) (ValueIdx.ix1 j))
            (fun j => m ((c.tc : Thread Cert.KernelIdeal.nD Cert.KernelIdeal.τ).loc Cert.KernelIdeal.main_arg9) (ValueIdx.ix2 j 0))
            (m ((c.tc : Thread Cert.KernelIdeal.nD Cert.KernelIdeal.τ).loc Cert.KernelIdeal.main_arg10) (ValueIdx.ix1 0))
            g) :
    Cert.algebraic_KernelIdeal_ReferenceIdeal := by
  intro m ρ m' ρ' _ hagree
  refine ⟨fun c => Cert.KernelIdeal.Gen.V13 m (Cert.KernelIdeal.Hand.outs m) c Cert.KernelIdeal.main_v59, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨g, rfl⟩ : ∃ g : Fin 64, i = ValueIdx.ix1 g := ⟨i 0, ValueIdx.eq_ix1 i⟩
  refine (Cert.ReferenceIdeal.RefValue.res_out0_apply m' c g).trans ?_
  refine Eq.trans ?_ (hres m c g).symm
  refine Eq.trans ?_ (spec_eq _ _ _ _ _ _ _ _ _ _ _ _ g).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

end Cert.Proof.Assemble

end
-- ==== Proof.lean ====
/- Three layers of a graph convolution, a mean over each graph's nodes and a linear head: seven kernel calls
   among host operations, against the reference that scales each message per edge and sums each graph's rows at once. -/
import proofs.«415099_j43559558316604_1_alg».proof.Defs
import proofs.«415099_j43559558316604_1_alg».proof.Proof.Gen.Kernel
import proofs.«415099_j43559558316604_1_alg».proof.Proof.Gen.KernelIdeal
import proofs.«415099_j43559558316604_1_alg».proof.Proof.Gen.ReferenceIdeal
import proofs.«415099_j43559558316604_1_alg».proof.Proof.Gen.Pre_finite_inputs
import proofs.«415099_j43559558316604_1_alg».proof.Proof.KI.ValChain
import proofs.«415099_j43559558316604_1_alg».proof.Proof.Assemble

noncomputable section

namespace Cert.Proof

open Idealize.ShloMosaic Idealize.SL.Sem

-- The idealization rewrote nothing, so the word-level program is the idealized program's own text: its frame is that program's frame at the word-level instance, definitions unfolded.
theorem frame_k : Cert.frame_Kernel :=
  cast (by sl_kernel_rfl) fun (m : (ℓ : Loc Cert.KernelIdeal.nD Cert.KernelIdeal.τ Cert.KernelIdeal.sig) → Buf (Elt Bits) ℓ)
    (ρ : Dev Cert.KernelIdeal.nD → PrngReg) (_ : Cert.Pre_Kernel m) => Cert.KernelIdeal.Hand.frame (F := Bits) m ρ

theorem frame_ki : Cert.frame_KernelIdeal := fun m ρ _ => Cert.KernelIdeal.Hand.frame m ρ

theorem algebraic : Cert.algebraic_KernelIdeal_ReferenceIdeal :=
  Cert.Proof.Assemble.algebraic_of fun m c g => Cert.KernelIdeal.Val.result_apply m c g

theorem claim : Cert.Claim := ⟨Cert.Kernel.Gen.facts, Cert.KernelIdeal.Gen.facts, Cert.ReferenceIdeal.Gen.facts, Cert.Pre_finite_inputs.Gen.facts,
  frame_k, frame_ki, Cert.Proof.Assemble.frame_ri, trivial, algebraic⟩

end Cert.Proof

end
